-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x130 : Shape := ⟨2, ![50000, 130]⟩
abbrev S400000x27 : Shape := ⟨2, ![400000, 27]⟩
abbrev S130 : Shape := ⟨1, ![130]⟩
abbrev S130x128 : Shape := ⟨2, ![130, 128]⟩
abbrev S128 : Shape := ⟨1, ![128]⟩
abbrev S283x128 : Shape := ⟨2, ![283, 128]⟩
abbrev S128x128 : Shape := ⟨2, ![128, 128]⟩
abbrev S256x128 : Shape := ⟨2, ![256, 128]⟩
abbrev S283x64 : Shape := ⟨2, ![283, 64]⟩
abbrev S64 : Shape := ⟨1, ![64]⟩
abbrev S64x64 : Shape := ⟨2, ![64, 64]⟩
abbrev S192x64 : Shape := ⟨2, ![192, 64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x400000 : Shape := ⟨2, ![2, 400000]⟩
abbrev S_ : Shape := ⟨0, ![]⟩

class Facts : Prop where
  bcast_S_S50000x130 : S_.BroadcastsInDim S50000x130 (![] : Fin 0 → Fin S50000x130.rank)
  reducesTo_S50000x130_S_d0_1 : S50000x130.ReducesTo [0, 1] S_
  h_S_ : 0 < S_.numel
  bcast_S_S400000x27 : S_.BroadcastsInDim S400000x27 (![] : Fin 0 → Fin S400000x27.rank)
  reducesTo_S400000x27_S_d0_1 : S400000x27.ReducesTo [0, 1] S_
  bcast_S_S130 : S_.BroadcastsInDim S130 (![] : Fin 0 → Fin S130.rank)
  reducesTo_S130_S_d0 : S130.ReducesTo [0] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S283x128 : S_.BroadcastsInDim S283x128 (![] : Fin 0 → Fin S283x128.rank)
  reducesTo_S283x128_S_d0_1 : S283x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S283x64 : S_.BroadcastsInDim S283x64 (![] : Fin 0 → Fin S283x64.rank)
  reducesTo_S283x64_S_d0_1 : S283x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x400000 : S_.BroadcastsInDim S2x400000 (![] : Fin 0 → Fin S2x400000.rank)
  reducesTo_S2x400000_S_d0_1 : S2x400000.ReducesTo [0, 1] S_

variable [Facts]

def fn_part10 {F : FTy → Type} [FloatOps F] (main_arg35 : FVec F S1 .f32) (main_arg36 : IVec S2x400000 32) (main_v168 : IVec S_ 1) (main_v169 : FVec F S32x1 .f32) (main_v170 : FVec F S32x1 .f32) : IVec S_ 1 :=
  let main_v171 : IVec S32x1 1 := cmpf .olt main_v169 main_v170
  let main_c_67 : IVec S_ 1 := constantI S_ 1 1#1
  let main_v172 : IVec S_ 1 := (fun x v => Host.reduce IntOp.andi x v reducesTo_S32x1_S_d0_1 h_S_) main_v171 main_c_67
  let main_v173 : IVec S_ 1 := andi main_v168 main_v172
  let main_v174 : FVec F S1 .f32 := Host.absf main_arg35
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  let main_c_70 : IVec S_ 32 := constantI S_ 32 0#32
  let main_v179 : IVec S2x400000 32 := broadcastInDim S2x400000 ![] bcast_S_S2x400000 main_c_70
  let main_v180 : IVec S2x400000 1 := cmpi .sge main_arg36 main_v179
  let main_c_71 : IVec S_ 1 := constantI S_ 1 1#1
  let main_v181 : IVec S_ 1 := (fun x v => Host.reduce IntOp.andi x v reducesTo_S2x400000_S_d0_1 h_S_) main_v180 main_c_71
  let main_v182 : IVec S_ 1 := andi main_v178 main_v181
  let main_c_72 : IVec S_ 32 := constantI S_ 32 50000#32
  let main_v183 : IVec S2x400000 32 := broadcastInDim S2x400000 ![] bcast_S_S2x400000 main_c_72
  let main_v184 : IVec S2x400000 1 := cmpi .slt main_arg36 main_v183
  let main_c_73 : IVec S_ 1 := constantI S_ 1 1#1
  let main_v185 : IVec S_ 1 := (fun x v => Host.reduce IntOp.andi x v reducesTo_S2x400000_S_d0_1 h_S_) main_v184 main_c_73
  let main_v186 : IVec S_ 1 := andi main_v182 main_v185
  main_v186

def fn_part9 {F : FTy → Type} [FloatOps F] (main_arg31 : FVec F S64 .f32) (main_arg32 : FVec F S64x32 .f32) (main_arg33 : FVec F S32 .f32) (main_arg34 : FVec F S32x1 .f32) (main_arg35 : FVec F S1 .f32) (main_arg36 : IVec S2x400000 32) (main_v153 : IVec S_ 1) : IVec S_ 1 :=
  let main_v154 : FVec F S64 .f32 := Host.absf main_arg31
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64x32 .f32 := Host.absf main_arg32
  let main_cst_62 : FVec F S_ .f32 := constant S_ .f32 0x7F800000#32
  let main_v160 : FVec F S64x32 .f32 := broadcastInDim S64x32 ![] bcast_S_S64x32 main_cst_62
  let main_v161 : IVec S64x32 1 := cmpf .olt main_v159 main_v160
  let main_c_63 : IVec S_ 1 := constantI S_ 1 1#1
  let main_v162 : IVec S_ 1 := (fun x v => Host.reduce IntOp.andi x v reducesTo_S64x32_S_d0_1 h_S_) main_v161 main_c_63
  let main_v163 : IVec S_ 1 := andi main_v158 main_v162
  let main_v164 : FVec F S32 .f32 := Host.absf main_arg33
  let main_cst_64 : FVec F S_ .f32 := constant S_ .f32 0x7F800000#32
  let main_v165 : FVec F S32 .f32 := broadcastInDim S32 ![] bcast_S_S32 main_cst_64
  let main_v166 : IVec S32 1 := cmpf .olt main_v164 main_v165
  let main_c_65 : IVec S_ 1 := constantI S_ 1 1#1
  let main_v167 : IVec S_ 1 := (fun x v => Host.reduce IntOp.andi x v reducesTo_S32_S_d0 h_S_) main_v166 main_c_65
  let main_v168 : IVec S_ 1 := andi main_v163 main_v167
  let main_v169 : FVec F S32x1 .f32 := Host.absf main_arg34
  let main_cst_66 : FVec F S_ .f32 := constant S_ .f32 0x7F800000#32
  let main_v170 : FVec F S32x1 .f32 := broadcastInDim S32x1 ![] bcast_S_S32x1 main_cst_66
  fn_part10 (F := F) main_arg35 main_arg36 main_v168 main_v169 main_v170

def fn_part8 {F : FTy → Type} [FloatOps F] (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg28
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg29
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S128x64 .f32 := Host.absf main_arg30
  let main_cst_58 : FVec F S_ .f32 := constant S_ .f32 0x7F800000#32
  let main_v150 : FVec F S128x64 .f32 := broadcastInDim S128x64 ![] bcast_S_S128x64 main_cst_58
  let main_v151 : IVec S128x64 1 := cmpf .olt main_v149 main_v150
  let main_c_59 : IVec S_ 1 := constantI S_ 1 1#1
  let main_v152 : IVec S_ 1 := (fun x v => Host.reduce IntOp.andi x v reducesTo_S128x64_S_d0_1 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg27
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S192x64 .f32 := Host.absf main_arg22
  let main_cst_42 : FVec F S_ .f32 := constant S_ .f32 0x7F800000#32
  let main_v110 : FVec F S192x64 .f32 := broadcastInDim S192x64 ![] bcast_S_S192x64 main_cst_42
  let main_v111 : IVec S192x64 1 := cmpf .olt main_v109 main_v110
  let main_c_43 : IVec S_ 1 := constantI S_ 1 1#1
  let main_v112 : IVec S_ 1 := (fun x v => Host.reduce IntOp.andi x v reducesTo_S192x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S283x64 .f32 := Host.absf main_arg18
  let main_cst_34 : FVec F S_ .f32 := constant S_ .f32 0x7F800000#32
  let main_v90 : FVec F S283x64 .f32 := broadcastInDim S283x64 ![] bcast_S_S283x64 main_cst_34
  let main_v91 : IVec S283x64 1 := cmpf .olt main_v89 main_v90
  let main_c_35 : IVec S_ 1 := constantI S_ 1 1#1
  let main_v92 : IVec S_ 1 := (fun x v => Host.reduce IntOp.andi x v reducesTo_S283x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S130x128 .f32) (main_arg5 : FVec F S128 .f32) (main_arg6 : FVec F S283x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) (main_v13 : IVec S_ 1) (main_v16 : IVec S130 1) : IVec S_ 1 :=
  let main_c_5 : IVec S_ 1 := constantI S_ 1 1#1
  let main_v17 : IVec S_ 1 := (fun x v => Host.reduce IntOp.andi x v reducesTo_S130_S_d0 h_S_) main_v16 main_c_5
  let main_v18 : IVec S_ 1 := andi main_v13 main_v17
  let main_v19 : FVec F S130x128 .f32 := Host.absf main_arg4
  let main_cst_6 : FVec F S_ .f32 := constant S_ .f32 0x7F800000#32
  let main_v20 : FVec F S130x128 .f32 := broadcastInDim S130x128 ![] bcast_S_S130x128 main_cst_6
  let main_v21 : IVec S130x128 1 := cmpf .olt main_v19 main_v20
  let main_c_7 : IVec S_ 1 := constantI S_ 1 1#1
  let main_v22 : IVec S_ 1 := (fun x v => Host.reduce IntOp.andi x v reducesTo_S130x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S283x128 .f32 := Host.absf main_arg6
  let main_cst_10 : FVec F S_ .f32 := constant S_ .f32 0x7F800000#32
  let main_v30 : FVec F S283x128 .f32 := broadcastInDim S283x128 ![] bcast_S_S283x128 main_cst_10
  let main_v31 : IVec S283x128 1 := cmpf .olt main_v29 main_v30
  let main_c_11 : IVec S_ 1 := constantI S_ 1 1#1
  let main_v32 : IVec S_ 1 := (fun x v => Host.reduce IntOp.andi x v reducesTo_S283x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S50000x130 .f32) (main_arg1 : FVec F S400000x27 .f32) (main_arg2 : FVec F S130 .f32) (main_arg3 : FVec F S130 .f32) (main_arg4 : FVec F S130x128 .f32) (main_arg5 : FVec F S128 .f32) (main_arg6 : FVec F S283x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S283x64 .f32) (main_arg19 : FVec F S64 .f32) (main_arg20 : FVec F S64x64 .f32) (main_arg21 : FVec F S64 .f32) (main_arg22 : FVec F S192x64 .f32) (main_arg23 : FVec F S64 .f32) (main_arg24 : FVec F S64x64 .f32) (main_arg25 : FVec F S64 .f32) (main_arg26 : FVec F S64 .f32) (main_arg27 : FVec F S64 .f32) (main_arg28 : FVec F S64 .f32) (main_arg29 : FVec F S64 .f32) (main_arg30 : FVec F S128x64 .f32) (main_arg31 : FVec F S64 .f32) (main_arg32 : FVec F S64x32 .f32) (main_arg33 : FVec F S32 .f32) (main_arg34 : FVec F S32x1 .f32) (main_arg35 : FVec F S1 .f32) (main_arg36 : IVec S2x400000 32) : IVec S_ 1 :=
  let main_v0 : FVec F S50000x130 .f32 := Host.absf main_arg0
  let main_cst : FVec F S_ .f32 := constant S_ .f32 0x7F800000#32
  let main_v1 : FVec F S50000x130 .f32 := broadcastInDim S50000x130 ![] bcast_S_S50000x130 main_cst
  let main_v2 : IVec S50000x130 1 := cmpf .olt main_v0 main_v1
  let main_c : IVec S_ 1 := constantI S_ 1 1#1
  let main_v3 : IVec S_ 1 := (fun x v => Host.reduce IntOp.andi x v reducesTo_S50000x130_S_d0_1 h_S_) main_v2 main_c
  let main_v4 : FVec F S400000x27 .f32 := Host.absf main_arg1
  let main_cst_0 : FVec F S_ .f32 := constant S_ .f32 0x7F800000#32
  let main_v5 : FVec F S400000x27 .f32 := broadcastInDim S400000x27 ![] bcast_S_S400000x27 main_cst_0
  let main_v6 : IVec S400000x27 1 := cmpf .olt main_v4 main_v5
  let main_c_1 : IVec S_ 1 := constantI S_ 1 1#1
  let main_v7 : IVec S_ 1 := (fun x v => Host.reduce IntOp.andi x v reducesTo_S400000x27_S_d0_1 h_S_) main_v6 main_c_1
  let main_v8 : IVec S_ 1 := andi main_v3 main_v7
  let main_v9 : FVec F S130 .f32 := Host.absf main_arg2
  let main_cst_2 : FVec F S_ .f32 := constant S_ .f32 0x7F800000#32
  let main_v10 : FVec F S130 .f32 := broadcastInDim S130 ![] bcast_S_S130 main_cst_2
  let main_v11 : IVec S130 1 := cmpf .olt main_v9 main_v10
  let main_c_3 : IVec S_ 1 := constantI S_ 1 1#1
  let main_v12 : IVec S_ 1 := (fun x v => Host.reduce IntOp.andi x v reducesTo_S130_S_d0 h_S_) main_v11 main_c_3
  let main_v13 : IVec S_ 1 := andi main_v8 main_v12
  let main_v14 : FVec F S130 .f32 := Host.absf main_arg3
  let main_cst_4 : FVec F S_ .f32 := constant S_ .f32 0x7F800000#32
  let main_v15 : FVec F S130 .f32 := broadcastInDim S130 ![] bcast_S_S130 main_cst_4
  let main_v16 : IVec S130 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S50000x130 : Shape := ⟨2, ![50000, 130]⟩
abbrev S400000x27 : Shape := ⟨2, ![400000, 27]⟩
abbrev S130 : Shape := ⟨1, ![130]⟩
abbrev S130x128 : Shape := ⟨2, ![130, 128]⟩
abbrev S128 : Shape := ⟨1, ![128]⟩
abbrev S283x128 : Shape := ⟨2, ![283, 128]⟩
abbrev S128x128 : Shape := ⟨2, ![128, 128]⟩
abbrev S256x128 : Shape := ⟨2, ![256, 128]⟩
abbrev S283x64 : Shape := ⟨2, ![283, 64]⟩
abbrev S64 : Shape := ⟨1, ![64]⟩
abbrev S64x64 : Shape := ⟨2, ![64, 64]⟩
abbrev S192x64 : Shape := ⟨2, ![192, 64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x400000 : Shape := ⟨2, ![2, 400000]⟩
abbrev S1x400000 : Shape := ⟨2, ![1, 400000]⟩
abbrev S400000 : Shape := ⟨1, ![400000]⟩
abbrev S1x130 : Shape := ⟨2, ![1, 130]⟩
abbrev S1x128 : Shape := ⟨2, ![1, 128]⟩
abbrev S50000x128 : Shape := ⟨2, ![50000, 128]⟩
abbrev S5000x130 : Shape := ⟨2, ![5000, 130]⟩
abbrev S5000x128 : Shape := ⟨2, ![5000, 128]⟩
abbrev S5000 : Shape := ⟨1, ![5000]⟩
abbrev S5000x1 : Shape := ⟨2, ![5000, 1]⟩
abbrev S_ : Shape := ⟨0, ![]⟩
abbrev S400000x1 : Shape := ⟨2, ![400000, 1]⟩
abbrev S1x1 : Shape := ⟨2, ![1, 1]⟩
abbrev S400000x128 : Shape := ⟨2, ![400000, 128]⟩
abbrev S27x128 : Shape := ⟨2, ![27, 128]⟩
abbrev S5000x27 : Shape := ⟨2, ![5000, 27]⟩
abbrev S50000 : Shape := ⟨1, ![50000]⟩
abbrev S50000x1 : Shape := ⟨2, ![50000, 1]⟩
abbrev S27x64 : Shape := ⟨2, ![27, 64]⟩
abbrev S1x64 : Shape := ⟨2, ![1, 64]⟩
abbrev S400000x64 : Shape := ⟨2, ![400000, 64]⟩
abbrev S5000x64 : Shape := ⟨2, ![5000, 64]⟩
abbrev S50000x64 : Shape := ⟨2, ![50000, 64]⟩
abbrev S1x32 : Shape := ⟨2, ![1, 32]⟩
abbrev S5000x32 : Shape := ⟨2, ![5000, 32]⟩

abbrev nBuf : Space → Nat
  | .hbm => 198
  | .vmem => 76
  | .smem => 0
  | _ => 0

abbrev hbmTy0_0 (i : Nat) : BufTy := match i % 128 with
  | 0 => ⟨S50000x130, .f32⟩
  | 1 => ⟨S400000x27, .f32⟩
  | 2 => ⟨S130, .f32⟩
  | 3 => ⟨S130, .f32⟩
  | 4 => ⟨S130x128, .f32⟩
  | 5 => ⟨S128, .f32⟩
  | 6 => ⟨S283x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S283x64, .f32⟩
  | 19 => ⟨S64, .f32⟩
  | 20 => ⟨S64x64, .f32⟩
  | 21 => ⟨S64, .f32⟩
  | 22 => ⟨S192x64, .f32⟩
  | 23 => ⟨S64, .f32⟩
  | 24 => ⟨S64x64, .f32⟩
  | 25 => ⟨S64, .f32⟩
  | 26 => ⟨S64, .f32⟩
  | 27 => ⟨S64, .f32⟩
  | 28 => ⟨S64, .f32⟩
  | 29 => ⟨S64, .f32⟩
  | 30 => ⟨S128x64, .f32⟩
  | 31 => ⟨S64, .f32⟩
  | 32 => ⟨S64x32, .f32⟩
  | 33 => ⟨S32, .f32⟩
  | 34 => ⟨S32x1, .f32⟩
  | 35 => ⟨S1, .f32⟩
  | 36 => ⟨S2x400000, .i32⟩
  | 37 => ⟨S1x400000, .i32⟩
  | 38 => ⟨S400000, .i32⟩
  | 39 => ⟨S1x400000, .i32⟩
  | 40 => ⟨S400000, .i32⟩
  | 41 => ⟨S1x130, .f32⟩
  | 42 => ⟨S1x130, .f32⟩
  | 43 => ⟨S1x128, .f32⟩
  | 44 => ⟨S50000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S1, .i32⟩
  | 54 => ⟨S_, .i32⟩
  | 55 => ⟨S400000x1, .i32⟩
  | 56 => ⟨S400000x1, .i1⟩
  | 57 => ⟨S1x1, .i32⟩
  | 58 => ⟨S400000x1, .i32⟩
  | 59 => ⟨S400000x1, .i1⟩
  | 60 => ⟨S400000x1, .i1⟩
  | 61 => ⟨S_, .i1⟩
  | 62 => ⟨S400000, .i1⟩
  | 63 => ⟨S400000x128, .f32⟩
  | 64 => ⟨S400000x128, .i1⟩
  | 65 => ⟨S_, .f32⟩
  | 66 => ⟨S400000x128, .f32⟩
  | 67 => ⟨S400000x128, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S1, .i32⟩
  | 77 => ⟨S_, .i32⟩
  | 78 => ⟨S400000x1, .i32⟩
  | 79 => ⟨S400000x1, .i1⟩
  | 80 => ⟨S1x1, .i32⟩
  | 81 => ⟨S400000x1, .i32⟩
  | 82 => ⟨S400000x1, .i1⟩
  | 83 => ⟨S400000x1, .i1⟩
  | 84 => ⟨S_, .i1⟩
  | 85 => ⟨S400000, .i1⟩
  | 86 => ⟨S400000x128, .f32⟩
  | 87 => ⟨S400000x128, .i1⟩
  | 88 => ⟨S_, .f32⟩
  | 89 => ⟨S400000x128, .f32⟩
  | 90 => ⟨S400000x128, .f32⟩
  | 91 => ⟨S128x128, .f32⟩
  | 92 => ⟨S128x128, .f32⟩
  | 93 => ⟨S27x128, .f32⟩
  | 94 => ⟨S1x128, .f32⟩
  | 95 => ⟨S1x128, .f32⟩
  | 96 => ⟨S400000x128, .f32⟩
  | 97 => ⟨S_, .f32⟩
  | 98 => ⟨S50000x128, .f32⟩
  | 99 => ⟨S400000x1, .i32⟩
  | 100 => ⟨S50000x128, .f32⟩
  | 101 => ⟨S_, .f32⟩
  | 102 => ⟨S400000, .f32⟩
  | 103 => ⟨S_, .f32⟩
  | 104 => ⟨S50000, .f32⟩
  | 105 => ⟨S400000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S128x128, .f32⟩
  | 114 => ⟨S128x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S50000x128, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S50000x130, .f32⟩

abbrev hbmTy0_1 (i : Nat) : BufTy := match i % 128 with
  | 0 => ⟨S400000, .i32⟩
  | 1 => ⟨S400000x1, .i32⟩
  | 2 => ⟨S1, .i32⟩
  | 3 => ⟨S_, .i32⟩
  | 4 => ⟨S400000x1, .i32⟩
  | 5 => ⟨S400000x1, .i1⟩
  | 6 => ⟨S1x1, .i32⟩
  | 7 => ⟨S400000x1, .i32⟩
  | 8 => ⟨S400000x1, .i1⟩
  | 9 => ⟨S400000x1, .i1⟩
  | 10 => ⟨S_, .i1⟩
  | 11 => ⟨S400000, .i1⟩
  | 12 => ⟨S400000x128, .f32⟩
  | 13 => ⟨S400000x128, .i1⟩
  | 14 => ⟨S_, .f32⟩
  | 15 => ⟨S400000x128, .f32⟩
  | 16 => ⟨S400000x128, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S1, .i32⟩
  | 26 => ⟨S_, .i32⟩
  | 27 => ⟨S400000x1, .i32⟩
  | 28 => ⟨S400000x1, .i1⟩
  | 29 => ⟨S1x1, .i32⟩
  | 30 => ⟨S400000x1, .i32⟩
  | 31 => ⟨S400000x1, .i1⟩
  | 32 => ⟨S400000x1, .i1⟩
  | 33 => ⟨S_, .i1⟩
  | 34 => ⟨S400000, .i1⟩
  | 35 => ⟨S400000x128, .f32⟩
  | 36 => ⟨S400000x128, .i1⟩
  | 37 => ⟨S_, .f32⟩
  | 38 => ⟨S400000x128, .f32⟩
  | 39 => ⟨S400000x128, .f32⟩
  | 40 => ⟨S128x64, .f32⟩
  | 41 => ⟨S128x64, .f32⟩
  | 42 => ⟨S27x64, .f32⟩
  | 43 => ⟨S1x64, .f32⟩
  | 44 => ⟨S1x64, .f32⟩
  | 45 => ⟨S400000x64, .f32⟩
  | 46 => ⟨S_, .f32⟩
  | 47 => ⟨S50000x64, .f32⟩
  | 48 => ⟨S400000x1, .i32⟩
  | 49 => ⟨S50000x64, .f32⟩
  | 50 => ⟨S_, .f32⟩
  | 51 => ⟨S50000, .f32⟩
  | 52 => ⟨S50000, .f32⟩
  | 53 => ⟨S50000x1, .f32⟩
  | 54 => ⟨S50000x64, .f32⟩
  | 55 => ⟨S50000x64, .f32⟩
  | 56 => ⟨S128x64, .f32⟩
  | 57 => ⟨S64x64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S50000x64, .f32⟩
  | 66 => ⟨S1x32, .f32⟩
  | 67 => ⟨S1x1, .f32⟩
  | 68 => ⟨S50000x1, .f32⟩
  | 69 => ⟨S50000, .f32⟩
  | _ => ⟨S50000x130, .f32⟩

abbrev hbmTy (i : Nat) : BufTy := match i / 128 with
  | 0 => hbmTy0_0 i
  | 1 => hbmTy0_1 i
  | _ => ⟨S50000x130, .f32⟩

abbrev bufTy : (tb : Table) → Fin (tcTables nBuf tb) → BufTy
  | .hbm, ⟨i, _⟩ => hbmTy i
  | .local _ .vmem, ⟨0, _⟩ => ⟨S5000x130, .f32⟩
  | .local _ .vmem, ⟨1, _⟩ => ⟨S5000x130, .f32⟩
  | .local _ .vmem, ⟨2, _⟩ => ⟨S1x130, .f32⟩
  | .local _ .vmem, ⟨3, _⟩ => ⟨S1x130, .f32⟩
  | .local _ .vmem, ⟨4, _⟩ => ⟨S130x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x27, .f32⟩
  | .local _ .vmem, ⟨13, _⟩ => ⟨S5000x27, .f32⟩
  | .local _ .vmem, ⟨14, _⟩ => ⟨S128x128, .f32⟩
  | .local _ .vmem, ⟨15, _⟩ => ⟨S128x128, .f32⟩
  | .local _ .vmem, ⟨16, _⟩ => ⟨S27x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x27, .f32⟩
  | .local _ .vmem, ⟨42, _⟩ => ⟨S5000x27, .f32⟩
  | .local _ .vmem, ⟨43, _⟩ => ⟨S128x64, .f32⟩
  | .local _ .vmem, ⟨44, _⟩ => ⟨S128x64, .f32⟩
  | .local _ .vmem, ⟨45, _⟩ => ⟨S27x64, .f32⟩
  | .local _ .vmem, ⟨46, _⟩ => ⟨S1x64, .f32⟩
  | .local _ .vmem, ⟨47, _⟩ => ⟨S64x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x128, .f32⟩
  | .local _ .vmem, ⟨52, _⟩ => ⟨S5000x128, .f32⟩
  | .local _ .vmem, ⟨53, _⟩ => ⟨S5000x64, .f32⟩
  | .local _ .vmem, ⟨54, _⟩ => ⟨S5000x64, .f32⟩
  | .local _ .vmem, ⟨55, _⟩ => ⟨S128x64, .f32⟩
  | .local _ .vmem, ⟨56, _⟩ => ⟨S64x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S128x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S64x32, .f32⟩
  | .local _ .vmem, ⟨71, _⟩ => ⟨S1x32, .f32⟩
  | .local _ .vmem, ⟨72, _⟩ => ⟨S32x1, .f32⟩
  | .local _ .vmem, ⟨73, _⟩ => ⟨S1x1, .f32⟩
  | .local _ .vmem, ⟨74, _⟩ => ⟨S5000x1, .f32⟩
  | .local _ .vmem, ⟨75, _⟩ => ⟨S5000x1, .f32⟩
  | _, _ => ⟨S50000x130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v8 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_cst : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_cst_0 : Ref sig .tc := ⟨.hbm, 101, rfl⟩
abbrev main_v19 : Ref sig .tc := ⟨.hbm, 102, rfl⟩
abbrev main_cst_1 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_cst_2 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_v14 : Ref sig .tc := ⟨.hbm, 141, rfl⟩
abbrev main_call2_cst : Ref sig .tc := ⟨.hbm, 142, rfl⟩
abbrev main_call2_v15 : Ref sig .tc := ⟨.hbm, 143, rfl⟩
abbrev main_v37 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_cst_3 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_cst_4 : Ref sig .tc := ⟨.hbm, 178, rfl⟩
abbrev main_v48 : Ref sig .tc := ⟨.hbm, 179, rfl⟩
abbrev main_v49 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_v56 : Ref sig .tc := ⟨.hbm, 187, rfl⟩
abbrev main_v57 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_v64 : Ref sig .tc := ⟨.hbm, 195, rfl⟩
abbrev main_v65 : Ref sig .tc := ⟨.hbm, 196, rfl⟩
abbrev main_v66 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg11_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg9_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg10_0 : Ref sig .tc := ⟨.vmem, 63, rfl⟩
abbrev cc4_stg11_0 : Ref sig .tc := ⟨.vmem, 64, rfl⟩
abbrev cc4_stg12_0 : Ref sig .tc := ⟨.vmem, 65, rfl⟩
abbrev cc4_stg13_0 : Ref sig .tc := ⟨.vmem, 66, rfl⟩
abbrev cc4_stg13_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg2_0 : Ref sig .tc := ⟨.vmem, 71, rfl⟩
abbrev cc5_stg3_0 : Ref sig .tc := ⟨.vmem, 72, rfl⟩
abbrev cc5_stg4_0 : Ref sig .tc := ⟨.vmem, 73, rfl⟩
abbrev cc5_stg5_0 : Ref sig .tc := ⟨.vmem, 74, rfl⟩
abbrev cc5_stg5_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem11_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem9_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem10_0 : DmaSem sig := 63
abbrev cc4_sem11_0 : DmaSem sig := 64
abbrev cc4_sem12_0 : DmaSem sig := 65
abbrev cc4_sem13_0 : DmaSem sig := 66
abbrev cc4_sem13_1 : DmaSem sig := 67
abbrev cc5_sem0_0 : DmaSem sig := 68
abbrev cc5_sem0_1 : DmaSem sig := 69
abbrev cc5_sem1_0 : DmaSem sig := 70
abbrev cc5_sem2_0 : DmaSem sig := 71
abbrev cc5_sem3_0 : DmaSem sig := 72
abbrev cc5_sem4_0 : DmaSem sig := 73
abbrev cc5_sem5_0 : DmaSem sig := 74
abbrev cc5_sem5_1 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x130 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x130 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S130x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x27 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S27x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x27 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S27x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S5000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S130_S1x130 : S130.ShapeCasts S1x130
  shapeCasts_S128_S1x128 : S128.ShapeCasts S1x128
  inb_S5000x130_S5000x130_0_0 : ∀ a, (![0, 0] : Fin 2 → Nat) a + S5000x130.size a ≤ S5000x130.size a
  h_S5000x130 : 0 < S5000x130.numel
  reduces_S5000x130_S5000 : S5000x130.Reduces [1] S5000
  shapeCasts_S5000_S5000x1 : S5000.ShapeCasts S5000x1
  broadcasts_S5000x1_S5000x130 : S5000x1.Broadcasts S5000x130
  inb_S1x130_S1x130_0_0 : ∀ a, (![0, 0] : Fin 2 → Nat) a + S1x130.size a ≤ S1x130.size a
  h_S1x130 : 0 < S1x130.numel
  shapeCasts_S1x130_S1x130 : S1x130.ShapeCasts S1x130
  broadcasts_S1x130_S5000x130 : S1x130.Broadcasts S5000x130
  bitsLt_bf16_f32 : FTy.bits .bf16 < FTy.bits .f32
  inb_S130x128_S130x128_0_0 : ∀ a, (![0, 0] : Fin 2 → Nat) a + S130x128.size a ≤ S130x128.size a
  h_S130x128 : 0 < S130x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S283x128_S128x128_0_0 : S283x128.Slices ![0, 0] S128x128
  slices_S283x128_S128x128_128_0 : S283x128.Slices ![128, 0] S128x128
  slices_S283x128_S27x128_256_0 : S283x128.Slices ![256, 0] S27x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x27_S5000x27_0_0 : ∀ a, (![0, 0] : Fin 2 → Nat) a + S5000x27.size a ≤ S5000x27.size a
  h_S5000x27 : 0 < S5000x27.numel
  inb_S27x128_S27x128_0_0 : ∀ a, (![0, 0] : Fin 2 → Nat) a + S27x128.size a ≤ S27x128.size a
  h_S27x128 : 0 < S27x128.numel
  shapeCasts_S27x128_S27x128 : S27x128.ShapeCasts S27x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  slices_S283x64_S128x64_0_0 : S283x64.Slices ![0, 0] S128x64
  slices_S283x64_S128x64_128_0 : S283x64.Slices ![128, 0] S128x64
  slices_S283x64_S27x64_256_0 : S283x64.Slices ![256, 0] S27x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S27x64_S27x64_0_0 : ∀ a, (![0, 0] : Fin 2 → Nat) a + S27x64.size a ≤ S27x64.size a
  h_S27x64 : 0 < S27x64.numel
  shapeCasts_S27x64_S27x64 : S27x64.ShapeCasts S27x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S192x64_S128x64_0_0 : S192x64.Slices ![0, 0] S128x64
  slices_S192x64_S64x64_128_0 : S192x64.Slices ![128, 0] S64x64
  shapeCasts_S5000x64_S5000x64 : S5000x64.ShapeCasts S5000x64
  shapeCasts_S64x64_S64x64 : S64x64.ShapeCasts S64x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  dot_S5000x130_S130x128_S5000x128_1_0_0_1_n_n_wf : DotDims.WF S5000x130 S130x128 S5000x128 [1] [0] [0] [1] [] []
  gather_S50000x128_S400000x1_S400000x128_1_0_n_n_0_1_1128_wf : GatherDims.WF S50000x128 S400000x1 S400000x128 [1] [0] [] [0] [] 1 ![1, 128]
  dot_S5000x128_S128x128_S5000x128_1_0_0_1_n_n_wf : DotDims.WF S5000x128 S128x128 S5000x128 [1] [0] [0] [1] [] []
  dot_S5000x27_S27x128_S5000x128_1_0_0_1_n_n_wf : DotDims.WF S5000x27 S27x128 S5000x128 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  dot_S5000x128_S128x64_S5000x64_1_0_0_1_n_n_wf : DotDims.WF S5000x128 S128x64 S5000x64 [1] [0] [0] [1] [] []
  dot_S5000x27_S27x64_S5000x64_1_0_0_1_n_n_wf : DotDims.WF S5000x27 S27x64 S5000x64 [1] [0] [0] [1] [] []
  dot_S5000x64_S64x64_S5000x64_1_0_0_1_n_n_wf : DotDims.WF S5000x64 S64x64 S5000x64 [1] [0] [0] [1] [] []
  scatter_S50000x64_S400000x1_S400000x64_1_0_0_1_wf : ScatterDims.WF S50000x64 S400000x1 S400000x64 [1] [0] [0] 1
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x130.size a ≤ S50000x130.size a
  hwx0_0 : ∀ i : grid0.Coords, EltTy.bits .f32 = 32 ∨ (Rect.block (s := S50000x130) S5000x130.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x130.size a ≤ S1x130.size a
  hwx0_1 : ∀ i : grid0.Coords, EltTy.bits .f32 = 32 ∨ (Rect.block (s := S1x130) S1x130.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x130.size a ≤ S1x130.size a
  hwx0_2 : ∀ i : grid0.Coords, EltTy.bits .f32 = 32 ∨ (Rect.block (s := S1x130) S1x130.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S130x128.size a ≤ S130x128.size a
  hwx0_3 : ∀ i : grid0.Coords, EltTy.bits .f32 = 32 ∨ (Rect.block (s := S130x128) S130x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S400000x128.size a
  hwx1_0 : ∀ i : grid1.Coords, EltTy.bits .f32 = 32 ∨ (Rect.block (s := S400000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S400000x128.size a
  hwx1_1 : ∀ i : grid1.Coords, EltTy.bits .f32 = 32 ∨ (Rect.block (s := S400000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x27.size a ≤ S400000x27.size a
  hwx1_2 : ∀ i : grid1.Coords, EltTy.bits .f32 = 32 ∨ (Rect.block (s := S400000x27) S5000x27.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S27x128.size a ≤ S27x128.size a
  hwx1_5 : ∀ i : grid1.Coords, EltTy.bits .f32 = 32 ∨ (Rect.block (s := S27x128) S27x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S400000x128.size a
  hwx1_9 : ∀ i : grid1.Coords, EltTy.bits .f32 = 32 ∨ (Rect.block (s := S400000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x128.size a ≤ S50000x128.size a
  hwx2_11 : ∀ i : grid2.Coords, EltTy.bits .f32 = 32 ∨ (Rect.block (s := S50000x128) S5000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S400000x128.size a
  hwx3_0 : ∀ i : grid3.Coords, EltTy.bits .f32 = 32 ∨ (Rect.block (s := S400000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S400000x128.size a
  hwx3_1 : ∀ i : grid3.Coords, EltTy.bits .f32 = 32 ∨ (Rect.block (s := S400000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x27.size a ≤ S400000x27.size a
  hwx3_2 : ∀ i : grid3.Coords, EltTy.bits .f32 = 32 ∨ (Rect.block (s := S400000x27) S5000x27.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S27x64.size a ≤ S27x64.size a
  hwx3_5 : ∀ i : grid3.Coords, EltTy.bits .f32 = 32 ∨ (Rect.block (s := S27x64) S27x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S400000x64.size a
  hwx3_9 : ∀ i : grid3.Coords, EltTy.bits .f32 = 32 ∨ (Rect.block (s := S400000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x64.size a ≤ S128x64.size a
  hwx4_11 : ∀ i : grid4.Coords, EltTy.bits .f32 = 32 ∨ (Rect.block (s := S128x64) S128x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S5000x64.size a ≤ S50000x64.size a
  hwx4_13 : ∀ i : grid4.Coords, EltTy.bits .f32 = 32 ∨ (Rect.block (s := S50000x64) S5000x64.size (cc4_transform_13 i) (hinb4_13 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x1.size a ≤ S32x1.size a
  hwx5_3 : ∀ i : grid5.Coords, EltTy.bits .f32 = 32 ∨ (Rect.block (s := S32x1) S32x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .f32 = 32 ∨ (Rect.block (s := S50000x1) S5000x1.size (cc5_transform_5 i) (hinb5_5 i)).WholeWords (EltTy.packing .f32)

variable [Facts₀]

def dot_S5000x130_S130x128_S5000x128_1_0_0_1_n_n : DotDims S5000x130 S130x128 S5000x128 where
  lhsContracting := [1]
  rhsContracting := [0]
  lhsNonContracting := [0]
  rhsNonContracting := [1]
  lhsBatch := []
  rhsBatch := []
  wf := dot_S5000x130_S130x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x27_S27x128_S5000x128_1_0_0_1_n_n : DotDims S5000x27 S27x128 S5000x128 where
  lhsContracting := [1]
  rhsContracting := [0]
  lhsNonContracting := [0]
  rhsNonContracting := [1]
  lhsBatch := []
  rhsBatch := []
  wf := dot_S5000x27_S27x128_S5000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x27_S27x64_S5000x64_1_0_0_1_n_n : DotDims S5000x27 S27x64 S5000x64 where
  lhsContracting := [1]
  rhsContracting := [0]
  lhsNonContracting := [0]
  rhsNonContracting := [1]
  lhsBatch := []
  rhsBatch := []
  wf := dot_S5000x27_S27x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x130.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x130.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S130x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x27.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S27x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v7) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v33) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v34) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v35) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v36) S5000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S5000x27.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S27x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg20) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v44) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v36) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg24) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v57) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v58) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v59) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v60) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg30) S128x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v61) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v62) S5000x64.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v62) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg32) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg34) S32x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x130 : Shape := ⟨2, ![50000, 130]⟩
abbrev S400000x27 : Shape := ⟨2, ![400000, 27]⟩
abbrev S130 : Shape := ⟨1, ![130]⟩
abbrev S130x128 : Shape := ⟨2, ![130, 128]⟩
abbrev S128 : Shape := ⟨1, ![128]⟩
abbrev S283x128 : Shape := ⟨2, ![283, 128]⟩
abbrev S128x128 : Shape := ⟨2, ![128, 128]⟩
abbrev S256x128 : Shape := ⟨2, ![256, 128]⟩
abbrev S283x64 : Shape := ⟨2, ![283, 64]⟩
abbrev S64 : Shape := ⟨1, ![64]⟩
abbrev S64x64 : Shape := ⟨2, ![64, 64]⟩
abbrev S192x64 : Shape := ⟨2, ![192, 64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S50000x1 : Shape := ⟨2, ![50000, 1]⟩
abbrev S1x130 : Shape := ⟨2, ![1, 130]⟩
abbrev S50000x128 : Shape := ⟨2, ![50000, 128]⟩
abbrev S1x128 : Shape := ⟨2, ![1, 128]⟩
abbrev S400000x1 : Shape := ⟨2, ![400000, 1]⟩
abbrev S400000x128 : Shape := ⟨2, ![400000, 128]⟩
abbrev S400000x283 : Shape := ⟨2, ![400000, 283]⟩
abbrev S50000x256 : Shape := ⟨2, ![50000, 256]⟩
abbrev S400000x64 : Shape := ⟨2, ![400000, 64]⟩
abbrev S1x64 : Shape := ⟨2, ![1, 64]⟩
abbrev S50000x64 : Shape := ⟨2, ![50000, 64]⟩
abbrev S50000x192 : Shape := ⟨2, ![50000, 192]⟩
abbrev S50000x32 : Shape := ⟨2, ![50000, 32]⟩
abbrev S1x32 : Shape := ⟨2, ![1, 32]⟩
abbrev S1x1 : Shape := ⟨2, ![1, 1]⟩

abbrev nBuf : Space → Nat
  | .hbm => 264
  | .vmem => 0
  | .smem => 0
  | _ => 0

abbrev hbmTy0_0 (i : Nat) : BufTy := match i % 128 with
  | 0 => ⟨S50000x130, .f32⟩
  | 1 => ⟨S400000x27, .f32⟩
  | 2 => ⟨S130, .f32⟩
  | 3 => ⟨S130, .f32⟩
  | 4 => ⟨S130x128, .f32⟩
  | 5 => ⟨S128, .f32⟩
  | 6 => ⟨S283x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S283x64, .f32⟩
  | 19 => ⟨S64, .f32⟩
  | 20 => ⟨S64x64, .f32⟩
  | 21 => ⟨S64, .f32⟩
  | 22 => ⟨S192x64, .f32⟩
  | 23 => ⟨S64, .f32⟩
  | 24 => ⟨S64x64, .f32⟩
  | 25 => ⟨S64, .f32⟩
  | 26 => ⟨S64, .f32⟩
  | 27 => ⟨S64, .f32⟩
  | 28 => ⟨S64, .f32⟩
  | 29 => ⟨S64, .f32⟩
  | 30 => ⟨S128x64, .f32⟩
  | 31 => ⟨S64, .f32⟩
  | 32 => ⟨S64x32, .f32⟩
  | 33 => ⟨S32, .f32⟩
  | 34 => ⟨S32x1, .f32⟩
  | 35 => ⟨S1, .f32⟩
  | 36 => ⟨S2x400000, .i32⟩
  | 37 => ⟨S1x400000, .i32⟩
  | 38 => ⟨S400000, .i32⟩
  | 39 => ⟨S1x400000, .i32⟩
  | 40 => ⟨S400000, .i32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S_, .i32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x130, .f32⟩
  | 55 => ⟨S50000x130, .f32⟩
  | 56 => ⟨S50000x130, .f32⟩
  | 57 => ⟨S_, .f32⟩
  | 58 => ⟨S_, .f32⟩
  | 59 => ⟨S_, .f32⟩
  | 60 => ⟨S_, .f32⟩
  | 61 => ⟨S50000, .f32⟩
  | 62 => ⟨S50000x1, .f32⟩
  | 63 => ⟨S50000x1, .f32⟩
  | 64 => ⟨S50000x1, .f32⟩
  | 65 => ⟨S_, .f32⟩
  | 66 => ⟨S_, .i1⟩
  | 67 => ⟨S_, .f32⟩
  | 68 => ⟨S_, .f32⟩
  | 69 => ⟨S50000x1, .f32⟩
  | 70 => ⟨S50000x1, .f32⟩
  | 71 => ⟨S50000x130, .f32⟩
  | 72 => ⟨S50000x130, .f32⟩
  | 73 => ⟨S_, .f32⟩
  | 74 => ⟨S50000x1, .f32⟩
  | 75 => ⟨S50000x1, .f32⟩
  | 76 => ⟨S50000x1, .f32⟩
  | 77 => ⟨S50000x130, .f32⟩
  | 78 => ⟨S50000x130, .f32⟩
  | 79 => ⟨S1x130, .f32⟩
  | 80 => ⟨S50000x130, .f32⟩
  | 81 => ⟨S50000x130, .f32⟩
  | 82 => ⟨S1x130, .f32⟩
  | 83 => ⟨S50000x130, .f32⟩
  | 84 => ⟨S50000x130, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S400000x283, .f32⟩
  | 111 => ⟨S400000x128, .f32⟩
  | 112 => ⟨S1x128, .f32⟩
  | 113 => ⟨S400000x128, .f32⟩
  | 114 => ⟨S400000x128, .f32⟩
  | 115 => ⟨S_, .f32⟩
  | 116 => ⟨S400000x128, .f32⟩
  | 117 => ⟨S400000x128, .f32⟩
  | 118 => ⟨S400000x128, .f32⟩
  | 119 => ⟨S1x128, .f32⟩
  | 120 => ⟨S400000x128, .f32⟩
  | 121 => ⟨S400000x128, .f32⟩
  | 122 => ⟨S_, .f32⟩
  | 123 => ⟨S50000x128, .f32⟩
  | 124 => ⟨S400000x1, .i32⟩
  | 125 => ⟨S50000x128, .f32⟩
  | 126 => ⟨S_, .f32⟩
  | 127 => ⟨S400000, .f32⟩
  | _ => ⟨S50000x130, .f32⟩

abbrev hbmTy0_1 (i : Nat) : BufTy := match i % 128 with
  | 0 => ⟨S_, .f32⟩
  | 1 => ⟨S50000, .f32⟩
  | 2 => ⟨S400000x1, .i32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x128, .f32⟩
  | 9 => ⟨S50000x128, .f32⟩
  | 10 => ⟨S50000x256, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S128, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S400000x283, .f32⟩
  | 61 => ⟨S400000x64, .f32⟩
  | 62 => ⟨S1x64, .f32⟩
  | 63 => ⟨S400000x64, .f32⟩
  | 64 => ⟨S400000x64, .f32⟩
  | 65 => ⟨S_, .f32⟩
  | 66 => ⟨S400000x64, .f32⟩
  | 67 => ⟨S400000x64, .f32⟩
  | 68 => ⟨S400000x64, .f32⟩
  | 69 => ⟨S1x64, .f32⟩
  | 70 => ⟨S400000x64, .f32⟩
  | 71 => ⟨S400000x64, .f32⟩
  | 72 => ⟨S_, .f32⟩
  | 73 => ⟨S50000x64, .f32⟩
  | 74 => ⟨S400000x1, .i32⟩
  | 75 => ⟨S50000x64, .f32⟩
  | 76 => ⟨S_, .f32⟩
  | 77 => ⟨S400000, .f32⟩
  | 78 => ⟨S_, .f32⟩
  | 79 => ⟨S50000, .f32⟩
  | 80 => ⟨S400000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x64, .f32⟩
  | 87 => ⟨S50000x64, .f32⟩
  | 88 => ⟨S50000x192, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S50000x64, .f32⟩
  | 124 => ⟨S50000x32, .f32⟩
  | 125 => ⟨S1x32, .f32⟩
  | 126 => ⟨S50000x32, .f32⟩
  | 127 => ⟨S50000x32, .f32⟩
  | _ => ⟨S50000x130, .f32⟩

abbrev hbmTy0_2 (i : Nat) : BufTy := match i % 128 with
  | 0 => ⟨S_, .f32⟩
  | 1 => ⟨S50000x32, .f32⟩
  | 2 => ⟨S50000x32, .f32⟩
  | 3 => ⟨S50000x1, .f32⟩
  | 4 => ⟨S1x1, .f32⟩
  | 5 => ⟨S50000x1, .f32⟩
  | 6 => ⟨S50000x1, .f32⟩
  | 7 => ⟨S50000, .f32⟩
  | _ => ⟨S50000x130, .f32⟩

abbrev hbmTy (i : Nat) : BufTy := match i / 128 with
  | 0 => hbmTy0_0 i
  | 1 => hbmTy0_1 i
  | 2 => hbmTy0_2 i
  | _ => ⟨S50000x130, .f32⟩

abbrev bufTy : (tb : Table) → Fin (tcTables nBuf tb) → BufTy
  | .hbm, ⟨i, _⟩ => hbmTy i
  | _, _ => ⟨S50000x130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_c : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_cst_1 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_call1_cst : Ref sig .tc := ⟨.hbm, 89, rfl⟩
abbrev main_call1_v0 : Ref sig .tc := ⟨.hbm, 90, rfl⟩
abbrev main_v26 : Ref sig .tc := ⟨.hbm, 91, rfl⟩
abbrev main_c_2 : Ref sig .tc := ⟨.hbm, 92, rfl⟩
abbrev main_v27 : Ref sig .tc := ⟨.hbm, 93, rfl⟩
abbrev main_v28 : Ref sig .tc := ⟨.hbm, 94, rfl⟩
abbrev main_c_3 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_c_4 : Ref sig .tc := ⟨.hbm, 101, rfl⟩
abbrev main_v34 : Ref sig .tc := ⟨.hbm, 102, rfl⟩
abbrev main_v35 : Ref sig .tc := ⟨.hbm, 103, rfl⟩
abbrev main_c_5 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_call2_cst : Ref sig .tc := ⟨.hbm, 115, rfl⟩
abbrev main_call2_v0 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_cst_6 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_7 : Ref sig .tc := ⟨.hbm, 126, rfl⟩
abbrev main_v54 : Ref sig .tc := ⟨.hbm, 127, rfl⟩
abbrev main_cst_8 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_cst_9 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_call3_cst : Ref sig .tc := ⟨.hbm, 143, rfl⟩
abbrev main_call3_v0 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_cst_10 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call4_cst : Ref sig .tc := ⟨.hbm, 166, rfl⟩
abbrev main_call4_v0 : Ref sig .tc := ⟨.hbm, 167, rfl⟩
abbrev main_v88 : Ref sig .tc := ⟨.hbm, 168, rfl⟩
abbrev main_v89 : Ref sig .tc := ⟨.hbm, 169, rfl⟩
abbrev main_c_11 : Ref sig .tc := ⟨.hbm, 170, rfl⟩
abbrev main_v90 : Ref sig .tc := ⟨.hbm, 171, rfl⟩
abbrev main_v91 : Ref sig .tc := ⟨.hbm, 172, rfl⟩
abbrev main_c_12 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_c_13 : Ref sig .tc := ⟨.hbm, 179, rfl⟩
abbrev main_v97 : Ref sig .tc := ⟨.hbm, 180, rfl⟩
abbrev main_v98 : Ref sig .tc := ⟨.hbm, 181, rfl⟩
abbrev main_c_14 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_call5_cst : Ref sig .tc := ⟨.hbm, 193, rfl⟩
abbrev main_call5_v0 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_cst_15 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_16 : Ref sig .tc := ⟨.hbm, 204, rfl⟩
abbrev main_v117 : Ref sig .tc := ⟨.hbm, 205, rfl⟩
abbrev main_cst_17 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_cst_18 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_call6_cst : Ref sig .tc := ⟨.hbm, 221, rfl⟩
abbrev main_call6_v0 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_19 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_call7_cst : Ref sig .tc := ⟨.hbm, 244, rfl⟩
abbrev main_call7_v0 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_call8_cst : Ref sig .tc := ⟨.hbm, 256, rfl⟩
abbrev main_call8_v0 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  reducesTo_S50000x130_S50000_d1 : S50000x130.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x130_0_1 : S50000x1.BroadcastsInDim S50000x130 (![0, 1] : Fin 2 → Fin S50000x130.rank)
  bcast_S130_S1x130_1 : S130.BroadcastsInDim S1x130 (![1] : Fin 1 → Fin S1x130.rank)
  bcast_S1x130_S50000x130_0_1 : S1x130.BroadcastsInDim S50000x130 (![0, 1] : Fin 2 → Fin S50000x130.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x27_S400000x283_d1 : Shape.Concatenates [S400000x128, S400000x128, S400000x27] S400000x283 1
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000 : S_.BroadcastsInDim S50000 (![] : Fin 0 → Fin S50000.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S128 : S_.BroadcastsInDim S128 (![] : Fin 0 → Fin S128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x128_S50000x64_S50000x192_d1 : Shape.Concatenates [S50000x128, S50000x64] S50000x192 1
  bcast_S1x64_S50000x64_0_1 : S1x64.BroadcastsInDim S50000x64 (![0, 1] : Fin 2 → Fin S50000x64.rank)
  bcast_S_S64 : S_.BroadcastsInDim S64 (![] : Fin 0 → Fin S64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x130_S130x128_S50000x128_1_0_0_1_n_n_wf : DotDims.WF S50000x130 S130x128 S50000x128 [1] [0] [0] [1] [] []
  gather_S50000x128_S400000x1_S400000x128_1_0_n_n_0_1_1128_wf : GatherDims.WF S50000x128 S400000x1 S400000x128 [1] [0] [] [0] [] 1 ![1, 128]
  dot_S400000x283_S283x128_S400000x128_1_0_0_1_n_n_wf : DotDims.WF S400000x283 S283x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S400000x283_S283x64_S400000x64_1_0_0_1_n_n_wf : DotDims.WF S400000x283 S283x64 S400000x64 [1] [0] [0] [1] [] []
  dot_S400000x64_S64x64_S400000x64_1_0_0_1_n_n_wf : DotDims.WF S400000x64 S64x64 S400000x64 [1] [0] [0] [1] [] []
  scatter_S50000x64_S400000x1_S400000x64_1_0_0_1_wf : ScatterDims.WF S50000x64 S400000x1 S400000x64 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def dot_S50000x130_S130x128_S50000x128_1_0_0_1_n_n : DotDims S50000x130 S130x128 S50000x128 where
  lhsContracting := [1]
  rhsContracting := [0]
  lhsNonContracting := [0]
  rhsNonContracting := [1]
  lhsBatch := []
  rhsBatch := []
  wf := dot_S50000x130_S130x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x283_S283x128_S400000x128_1_0_0_1_n_n : DotDims S400000x283 S283x128 S400000x128 where
  lhsContracting := [1]
  rhsContracting := [0]
  lhsNonContracting := [0]
  rhsNonContracting := [1]
  lhsBatch := []
  rhsBatch := []
  wf := dot_S400000x283_S283x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x283_S283x64_S400000x64_1_0_0_1_n_n : DotDims S400000x283 S283x64 S400000x64 where
  lhsContracting := [1]
  rhsContracting := [0]
  lhsNonContracting := [0]
  rhsNonContracting := [1]
  lhsBatch := []
  rhsBatch := []
  wf := dot_S400000x283_S283x64_S400000x64_1_0_0_1_n_n_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.Frames.lean ====
import proofs.«418876_j14568529068621_1_alg».proof.Defs
import proofs.«418876_j14568529068621_1_alg».proof.Proof.Gen.Kernel.Frame
import proofs.«418876_j14568529068621_1_alg».proof.Proof.Gen.KernelIdeal.Frame
import proofs.«418876_j14568529068621_1_alg».proof.Proof.Gen.Pre_finite_inputs

noncomputable section

open Idealize.ShloMosaic Idealize.SL.Sem

namespace Cert.Proof.Frames

theorem kernel : Cert.frame_Kernel (hKernel := Cert.Kernel.Gen.facts) (hPre_finite_inputs := Cert.Pre_finite_inputs.Gen.facts) :=
  fun m ρ _ => Cert.Kernel.Gen.frame m ρ

theorem kernelIdeal : Cert.frame_KernelIdeal (hKernelIdeal := Cert.KernelIdeal.Gen.facts) (hPre_finite_inputs := Cert.Pre_finite_inputs.Gen.facts) :=
  fun m ρ _ => Cert.KernelIdeal.Gen.frame m ρ

end Cert.Proof.Frames

end
-- ==== Proof.Ref.Ops.lean ====
import proofs.«418876_j14568529068621_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev w0 : List (HloOp τ sig (Elt F)) :=
  [ StableHlo.unary main_arg36 main_v0 (extractStridedSlice S1x400000 ![0, 0] · slices_S2x400000_S1x400000_0_0),
    StableHlo.reshape main_v0 main_v1 rfl shapeCasts_S1x400000_S400000,
    StableHlo.unary main_arg36 main_v2 (extractStridedSlice S1x400000 ![1, 0] · slices_S2x400000_S1x400000_1_0),
    StableHlo.reshape main_v2 main_v3 rfl shapeCasts_S1x400000_S400000,
    StableHlo.nullary main_cst (constant S_ .f32 0x00000000#32),
    StableHlo.binary main_arg0 main_cst main_v4 (fun x v => Host.reduceAdd x v reducesTo_S50000x130_S50000_d1 h_S_),
    StableHlo.unary main_v4 main_v5 (broadcastInDim S50000x1 ![0] bcast_S50000_S50000x1_0),
    StableHlo.nullary main_cst_0 (constant S_ .f32 0x43020000#32),
    StableHlo.unary main_cst_0 main_v6 (broadcastInDim S50000x1 ![] bcast_S_S50000x1),
    StableHlo.binary main_v5 main_v6 main_v7 Host.divf,
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S50000x130_S50000_d1 h_S_),
    StableHlo.TRef.unary main_call0.v0 main_call0.v1 (broadcastInDim S50000x1 ![0] bcast_S50000_S50000x1_0),
    StableHlo.TRef.nullary main_call0.cst_0 (constant S_ .f32 0x43020000#32),
    StableHlo.TRef.unary main_call0.cst_0 main_call0.v2 (broadcastInDim S50000x1 ![] bcast_S_S50000x1),
    StableHlo.TRef.binary main_call0.v1 main_call0.v2 main_call0.v3 Host.divf,
    StableHlo.TRef.unary main_call0.v3 main_call0.v4 (broadcastInDim S50000x130 ![0, 1] bcast_S50000x1_S50000x130_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43020000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x130_S50000_d1 h_S_),
    StableHlo.TRef.unary main_call0.v9 main_call0.v10 (broadcastInDim S50000x1 ![0] bcast_S50000_S50000x1_0),
    StableHlo.TRef.unary main_call0.v8 main_call0.v11 (broadcastInDim S50000x1 ![] bcast_S_S50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S50000x1 ![] bcast_S_S50000x1),
    StableHlo.TRef.ternary main_call0.v13 main_call0.v12 main_call0.call0.v1 main_call0.call0.v2 (fun p a b => select (broadcastInDim S50000x1 ![] bcast_S_S50000x1 p) a b),
    StableHlo.unary main_v7 main_v9 (broadcastInDim S50000x130 ![0, 1] bcast_S50000x1_S50000x130_0_1),
    StableHlo.binary main_arg0 main_v9 main_v10 subf,
    StableHlo.nullary main_cst_1 (constant S_ .f32 0x3727C5AC#32),
    StableHlo.unary main_cst_1 main_v11 (broadcastInDim S50000x1 ![] bcast_S_S50000x1),
    StableHlo.binary main_v8 main_v11 main_v12 addf,
    StableHlo.unary main_v12 main_v13 Host.rsqrt,
    StableHlo.unary main_v13 main_v14 (broadcastInDim S50000x130 ![0, 1] bcast_S50000x1_S50000x130_0_1),
    StableHlo.binary main_v10 main_v14 main_v15 mulf,
    StableHlo.unary main_arg2 main_v16 (broadcastInDim S1x130 ![1] bcast_S130_S1x130_1),
    StableHlo.unary main_v16 main_v17 (broadcastInDim S50000x130 ![0, 1] bcast_S1x130_S50000x130_0_1),
    StableHlo.binary main_v15 main_v17 main_v18 mulf,
    StableHlo.unary main_arg3 main_v19 (broadcastInDim S1x130 ![1] bcast_S130_S1x130_1),
    StableHlo.unary main_v19 main_v20 (broadcastInDim S50000x130 ![0, 1] bcast_S1x130_S50000x130_0_1),
    StableHlo.binary main_v18 main_v20 main_v21 addf,
    StableHlo.binary main_v21 main_arg4 main_v22 (fun l r => Host.dotGeneral dot_S50000x130_S130x128_S50000x128_1_0_0_1_n_n none l r),
    StableHlo.unary main_arg5 main_v23 (broadcastInDim S1x128 ![1] bcast_S128_S1x128_1),
    StableHlo.unary main_v23 main_v24 (broadcastInDim S50000x128 ![0, 1] bcast_S1x128_S50000x128_0_1),
    StableHlo.binary main_v22 main_v24 main_v25 addf,
    StableHlo.TRef.nullary main_call1.cst (constant S_ .f32 0x00000000#32),
    StableHlo.TRef.unary main_call1.cst main_call1.v0 (broadcastInDim S50000x128 ![] bcast_S_S50000x128),
    StableHlo.TRef.binary (.of main_v25) main_call1.v0 main_call1.v1 maximumf ]

abbrev w0_W : List (Ref sig .tc) :=
  [main_v0, main_v1, main_v2, main_v3, main_cst, main_v4, main_v5, main_cst_0, main_v6, main_v7, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v9, main_v10, main_cst_1, main_v11, main_v12, main_v13, main_v14, main_v15, main_v16, main_v17, main_v18, main_v19, main_v20, main_v21, main_v22, main_v23, main_v24, main_v25, main_call1.cst.ref, main_call1.v0.ref, main_call1.v1.ref]

abbrev w1 : List (HloOp τ sig (Elt F)) :=
  [ StableHlo.nullary main_c_2 (constantI S_ 32 0#32),
    StableHlo.unary main_c_2 main_v27 (broadcastInDim S400000 ![] bcast_S_S400000),
    StableHlo.binary main_v3 main_v27 main_v28 (cmpi .slt),
    StableHlo.nullary main_c_3 (constantI S_ 32 50000#32),
    StableHlo.unary main_c_3 main_v29 (broadcastInDim S400000 ![] bcast_S_S400000),
    StableHlo.binary main_v3 main_v29 main_v30 addi,
    StableHlo.ternary main_v28 main_v30 main_v3 main_v31 select,
    StableHlo.unary main_v31 main_v32 (broadcastInDim S400000x1 ![0] bcast_S400000_S400000x1_0),
    StableHlo.binary main_v26 main_v32 main_v33 (fun x i => Host.gather gather_S50000x128_S400000x1_S400000x128_1_0_n_n_0_1_1128 x i),
    StableHlo.nullary main_c_4 (constantI S_ 32 0#32),
    StableHlo.unary main_c_4 main_v34 (broadcastInDim S400000 ![] bcast_S_S400000),
    StableHlo.binary main_v1 main_v34 main_v35 (cmpi .slt),
    StableHlo.nullary main_c_5 (constantI S_ 32 50000#32),
    StableHlo.unary main_c_5 main_v36 (broadcastInDim S400000 ![] bcast_S_S400000),
    StableHlo.binary main_v1 main_v36 main_v37 addi,
    StableHlo.ternary main_v35 main_v37 main_v1 main_v38 select,
    StableHlo.unary main_v38 main_v39 (broadcastInDim S400000x1 ![0] bcast_S400000_S400000x1_0),
    StableHlo.binary main_v26 main_v39 main_v40 (fun x i => Host.gather gather_S50000x128_S400000x1_S400000x128_1_0_n_n_0_1_1128 x i) ]

abbrev w1_W : List (Ref sig .tc) :=
  [main_c_2, main_v27, main_v28, main_c_3, main_v29, main_v30, main_v31, main_v32, main_v33, main_c_4, main_v34, main_v35, main_c_5, main_v36, main_v37, main_v38, main_v39, main_v40]

abbrev w2 : List (HloOp τ sig (Elt F)) :=
  [ StableHlo.nary ![main_v33, main_v40, main_arg1] main_v41 (fun u => concatenate S400000x283 1 [⟨S400000x128, u 0⟩, ⟨S400000x128, u 1⟩, ⟨S400000x27, u 2⟩] concatenates_S400000x128_S400000x128_S400000x27_S400000x283_d1),
    StableHlo.binary main_v41 main_arg6 main_v42 (fun l r => Host.dotGeneral dot_S400000x283_S283x128_S400000x128_1_0_0_1_n_n none l r),
    StableHlo.unary main_arg7 main_v43 (broadcastInDim S1x128 ![1] bcast_S128_S1x128_1),
    StableHlo.unary main_v43 main_v44 (broadcastInDim S400000x128 ![0, 1] bcast_S1x128_S400000x128_0_1),
    StableHlo.binary main_v42 main_v44 main_v45 addf,
    StableHlo.TRef.nullary main_call2.cst (constant S_ .f32 0x00000000#32),
    StableHlo.TRef.unary main_call2.cst main_call2.v0 (broadcastInDim S400000x128 ![] bcast_S_S400000x128),
    StableHlo.TRef.binary (.of main_v45) main_call2.v0 main_call2.v1 maximumf,
    StableHlo.binary main_v46 main_arg8 main_v47 (fun l r => Host.dotGeneral dot_S400000x128_S128x128_S400000x128_1_0_0_1_n_n none l r),
    StableHlo.unary main_arg9 main_v48 (broadcastInDim S1x128 ![1] bcast_S128_S1x128_1),
    StableHlo.unary main_v48 main_v49 (broadcastInDim S400000x128 ![0, 1] bcast_S1x128_S400000x128_0_1),
    StableHlo.binary main_v47 main_v49 main_v50 addf ]

abbrev w2_W : List (Ref sig .tc) :=
  [main_v41, main_v42, main_v43, main_v44, main_v45, main_call2.cst.ref, main_call2.v0.ref, main_call2.v1.ref, main_v47, main_v48, main_v49, main_v50]

abbrev w3a : List (HloOp τ sig (Elt F)) :=
  [ StableHlo.nullary main_cst_6 (constant S_ .f32 0x00000000#32) ]

abbrev w3b : List (HloOp τ sig (Elt F)) :=
  [ StableHlo.unary main_cst_6 main_v51 (broadcastInDim S50000x128 ![] bcast_S_S50000x128),
    StableHlo.unary main_v3 main_v52 (broadcastInDim S400000x1 ![0] bcast_S400000_S400000x1_0),
    StableHlo.ternary main_v51 main_v52 main_v50 main_v53 (fun x i u => Host.scatterAdd scatter_S50000x128_S400000x1_S400000x128_1_0_0_1 x i u),
    StableHlo.nullary main_cst_7 (constant S_ .f32 0x3F800000#32),
    StableHlo.unary main_cst_7 main_v54 (broadcastInDim S400000 ![] bcast_S_S400000),
    StableHlo.nullary main_cst_8 (constant S_ .f32 0x00000000#32),
    StableHlo.unary main_cst_8 main_v55 (broadcastInDim S50000 ![] bcast_S_S50000),
    StableHlo.unary main_v3 main_v56 (broadcastInDim S400000x1 ![0] bcast_S400000_S400000x1_0),
    StableHlo.ternary main_v55 main_v56 main_v54 main_v57 (fun x i u => Host.scatterAdd scatter_S50000_S400000x1_S400000_n_0_0_1 x i u),
    StableHlo.nullary main_cst_9 (constant S_ .f32 0x3F800000#32),
    StableHlo.unary main_cst_9 main_v58 (broadcastInDim S50000 ![] bcast_S_S50000),
    StableHlo.binary main_v57 main_v58 main_v59 maximumf,
    StableHlo.unary main_v59 main_v60 (broadcastInDim S50000x1 ![0] bcast_S50000_S50000x1_0),
    StableHlo.unary main_v60 main_v61 (broadcastInDim S50000x128 ![0, 1] bcast_S50000x1_S50000x128_0_1),
    StableHlo.binary main_v53 main_v61 main_v62 Host.divf ]

abbrev w3 : List (HloOp τ sig (Elt F)) := w3a ++ w3b

abbrev w3_W : List (Ref sig .tc) :=
  [main_cst_6, main_v51, main_v52, main_v53, main_cst_7, main_v54, main_cst_8, main_v55, main_v56, main_v57, main_cst_9, main_v58, main_v59, main_v60, main_v61, main_v62]

abbrev w4 : List (HloOp τ sig (Elt F)) :=
  [ StableHlo.binary main_v26 main_v62 main_v63 (fun a b => concatenate S50000x256 1 [⟨S50000x128, a⟩, ⟨S50000x128, b⟩] concatenates_S50000x128_S50000x128_S50000x256_d1),
    StableHlo.binary main_v63 main_arg10 main_v64 (fun l r => Host.dotGeneral dot_S50000x256_S256x128_S50000x128_1_0_0_1_n_n none l r),
    StableHlo.unary main_arg11 main_v65 (broadcastInDim S1x128 ![1] bcast_S128_S1x128_1),
    StableHlo.unary main_v65 main_v66 (broadcastInDim S50000x128 ![0, 1] bcast_S1x128_S50000x128_0_1),
    StableHlo.binary main_v64 main_v66 main_v67 addf,
    StableHlo.TRef.nullary main_call3.cst (constant S_ .f32 0x00000000#32),
    StableHlo.TRef.unary main_call3.cst main_call3.v0 (broadcastInDim S50000x128 ![] bcast_S_S50000x128),
    StableHlo.TRef.binary (.of main_v67) main_call3.v0 main_call3.v1 maximumf,
    StableHlo.binary main_v68 main_arg12 main_v69 (fun l r => Host.dotGeneral dot_S50000x128_S128x128_S50000x128_1_0_0_1_n_n none l r),
    StableHlo.unary main_arg13 main_v70 (broadcastInDim S1x128 ![1] bcast_S128_S1x128_1),
    StableHlo.unary main_v70 main_v71 (broadcastInDim S50000x128 ![0, 1] bcast_S1x128_S50000x128_0_1),
    StableHlo.binary main_v69 main_v71 main_v72 addf,
    StableHlo.unary main_arg16 main_v73 (broadcastInDim S1x128 ![1] bcast_S128_S1x128_1),
    StableHlo.unary main_v73 main_v74 (broadcastInDim S50000x128 ![0, 1] bcast_S1x128_S50000x128_0_1),
    StableHlo.binary main_v72 main_v74 main_v75 subf,
    StableHlo.nullary main_cst_10 (constant S_ .f32 0x3727C5AC#32),
    StableHlo.unary main_cst_10 main_v76 (broadcastInDim S128 ![] bcast_S_S128),
    StableHlo.binary main_arg17 main_v76 main_v77 addf,
    StableHlo.unary main_v77 main_v78 Host.rsqrt,
    StableHlo.unary main_v78 main_v79 (broadcastInDim S1x128 ![1] bcast_S128_S1x128_1),
    StableHlo.unary main_v79 main_v80 (broadcastInDim S50000x128 ![0, 1] bcast_S1x128_S50000x128_0_1),
    StableHlo.binary main_v75 main_v80 main_v81 mulf,
    StableHlo.unary main_arg14 main_v82 (broadcastInDim S1x128 ![1] bcast_S128_S1x128_1),
    StableHlo.unary main_v82 main_v83 (broadcastInDim S50000x128 ![0, 1] bcast_S1x128_S50000x128_0_1),
    StableHlo.binary main_v81 main_v83 main_v84 mulf,
    StableHlo.unary main_arg15 main_v85 (broadcastInDim S1x128 ![1] bcast_S128_S1x128_1),
    StableHlo.unary main_v85 main_v86 (broadcastInDim S50000x128 ![0, 1] bcast_S1x128_S50000x128_0_1),
    StableHlo.binary main_v84 main_v86 main_v87 addf,
    StableHlo.TRef.nullary main_call4.cst (constant S_ .f32 0x00000000#32),
    StableHlo.TRef.unary main_call4.cst main_call4.v0 (broadcastInDim S50000x128 ![] bcast_S_S50000x128),
    StableHlo.TRef.binary (.of main_v87) main_call4.v0 main_call4.v1 maximumf,
    StableHlo.binary main_v26 main_v88 main_v89 addf ]

abbrev w4_W : List (Ref sig .tc) :=
  [main_v63, main_v64, main_v65, main_v66, main_v67, main_call3.cst.ref, main_call3.v0.ref, main_call3.v1.ref, main_v69, main_v70, main_v71, main_v72, main_v73, main_v74, main_v75, main_cst_10, main_v76, main_v77, main_v78, main_v79, main_v80, main_v81, main_v82, main_v83, main_v84, main_v85, main_v86, main_v87, main_call4.cst.ref, main_call4.v0.ref, main_call4.v1.ref, main_v89]

abbrev w5a : List (HloOp τ sig (Elt F)) :=
  [ StableHlo.nullary main_c_11 (constantI S_ 32 0#32),
    StableHlo.unary main_c_11 main_v90 (broadcastInDim S400000 ![] bcast_S_S400000),
    StableHlo.binary main_v3 main_v90 main_v91 (cmpi .slt),
    StableHlo.nullary main_c_12 (constantI S_ 32 50000#32),
    StableHlo.unary main_c_12 main_v92 (broadcastInDim S400000 ![] bcast_S_S400000),
    StableHlo.binary main_v3 main_v92 main_v93 addi,
    StableHlo.ternary main_v91 main_v93 main_v3 main_v94 select,
    StableHlo.unary main_v94 main_v95 (broadcastInDim S400000x1 ![0] bcast_S400000_S400000x1_0),
    StableHlo.binary main_v89 main_v95 main_v96 (fun x i => Host.gather gather_S50000x128_S400000x1_S400000x128_1_0_n_n_0_1_1128 x i),
    StableHlo.nullary main_c_13 (constantI S_ 32 0#32),
    StableHlo.unary main_c_13 main_v97 (broadcastInDim S400000 ![] bcast_S_S400000),
    StableHlo.binary main_v1 main_v97 main_v98 (cmpi .slt),
    StableHlo.nullary main_c_14 (constantI S_ 32 50000#32),
    StableHlo.unary main_c_14 main_v99 (broadcastInDim S400000 ![] bcast_S_S400000),
    StableHlo.binary main_v1 main_v99 main_v100 addi,
    StableHlo.ternary main_v98 main_v100 main_v1 main_v101 select,
    StableHlo.unary main_v101 main_v102 (broadcastInDim S400000x1 ![0] bcast_S400000_S400000x1_0) ]

abbrev w5b : List (HloOp τ sig (Elt F)) :=
  [ StableHlo.binary main_v89 main_v102 main_v103 (fun x i => Host.gather gather_S50000x128_S400000x1_S400000x128_1_0_n_n_0_1_1128 x i) ]

abbrev w5 : List (HloOp τ sig (Elt F)) := w5a ++ w5b

abbrev w5_W : List (Ref sig .tc) :=
  [main_c_11, main_v90, main_v91, main_c_12, main_v92, main_v93, main_v94, main_v95, main_v96, main_c_13, main_v97, main_v98, main_c_14, main_v99, main_v100, main_v101, main_v102, main_v103]

abbrev w6 : List (HloOp τ sig (Elt F)) :=
  [ StableHlo.nary ![main_v96, main_v103, main_arg1] main_v104 (fun u => concatenate S400000x283 1 [⟨S400000x128, u 0⟩, ⟨S400000x128, u 1⟩, ⟨S400000x27, u 2⟩] concatenates_S400000x128_S400000x128_S400000x27_S400000x283_d1),
    StableHlo.binary main_v104 main_arg18 main_v105 (fun l r => Host.dotGeneral dot_S400000x283_S283x64_S400000x64_1_0_0_1_n_n none l r),
    StableHlo.unary main_arg19 main_v106 (broadcastInDim S1x64 ![1] bcast_S64_S1x64_1),
    StableHlo.unary main_v106 main_v107 (broadcastInDim S400000x64 ![0, 1] bcast_S1x64_S400000x64_0_1),
    StableHlo.binary main_v105 main_v107 main_v108 addf,
    StableHlo.TRef.nullary main_call5.cst (constant S_ .f32 0x00000000#32),
    StableHlo.TRef.unary main_call5.cst main_call5.v0 (broadcastInDim S400000x64 ![] bcast_S_S400000x64),
    StableHlo.TRef.binary (.of main_v108) main_call5.v0 main_call5.v1 maximumf,
    StableHlo.binary main_v109 main_arg20 main_v110 (fun l r => Host.dotGeneral dot_S400000x64_S64x64_S400000x64_1_0_0_1_n_n none l r),
    StableHlo.unary main_arg21 main_v111 (broadcastInDim S1x64 ![1] bcast_S64_S1x64_1),
    StableHlo.unary main_v111 main_v112 (broadcastInDim S400000x64 ![0, 1] bcast_S1x64_S400000x64_0_1),
    StableHlo.binary main_v110 main_v112 main_v113 addf ]

abbrev w6_W : List (Ref sig .tc) :=
  [main_v104, main_v105, main_v106, main_v107, main_v108, main_call5.cst.ref, main_call5.v0.ref, main_call5.v1.ref, main_v110, main_v111, main_v112, main_v113]

abbrev w7 : List (HloOp τ sig (Elt F)) :=
  [ StableHlo.nullary main_cst_15 (constant S_ .f32 0x00000000#32),
    StableHlo.unary main_cst_15 main_v114 (broadcastInDim S50000x64 ![] bcast_S_S50000x64),
    StableHlo.unary main_v3 main_v115 (broadcastInDim S400000x1 ![0] bcast_S400000_S400000x1_0),
    StableHlo.ternary main_v114 main_v115 main_v113 main_v116 (fun x i u => Host.scatterAdd scatter_S50000x64_S400000x1_S400000x64_1_0_0_1 x i u),
    StableHlo.nullary main_cst_16 (constant S_ .f32 0x3F800000#32),
    StableHlo.unary main_cst_16 main_v117 (broadcastInDim S400000 ![] bcast_S_S400000),
    StableHlo.nullary main_cst_17 (constant S_ .f32 0x00000000#32),
    StableHlo.unary main_cst_17 main_v118 (broadcastInDim S50000 ![] bcast_S_S50000),
    StableHlo.unary main_v3 main_v119 (broadcastInDim S400000x1 ![0] bcast_S400000_S400000x1_0),
    StableHlo.ternary main_v118 main_v119 main_v117 main_v120 (fun x i u => Host.scatterAdd scatter_S50000_S400000x1_S400000_n_0_0_1 x i u),
    StableHlo.nullary main_cst_18 (constant S_ .f32 0x3F800000#32),
    StableHlo.unary main_cst_18 main_v121 (broadcastInDim S50000 ![] bcast_S_S50000),
    StableHlo.binary main_v120 main_v121 main_v122 maximumf,
    StableHlo.unary main_v122 main_v123 (broadcastInDim S50000x1 ![0] bcast_S50000_S50000x1_0),
    StableHlo.unary main_v123 main_v124 (broadcastInDim S50000x64 ![0, 1] bcast_S50000x1_S50000x64_0_1),
    StableHlo.binary main_v116 main_v124 main_v125 Host.divf ]

abbrev w7_W : List (Ref sig .tc) :=
  [main_cst_15, main_v114, main_v115, main_v116, main_cst_16, main_v117, main_cst_17, main_v118, main_v119, main_v120, main_cst_18, main_v121, main_v122, main_v123, main_v124, main_v125]

abbrev w8 : List (HloOp τ sig (Elt F)) :=
  [ StableHlo.binary main_v89 main_v125 main_v126 (fun a b => concatenate S50000x192 1 [⟨S50000x128, a⟩, ⟨S50000x64, b⟩] concatenates_S50000x128_S50000x64_S50000x192_d1),
    StableHlo.binary main_v126 main_arg22 main_v127 (fun l r => Host.dotGeneral dot_S50000x192_S192x64_S50000x64_1_0_0_1_n_n none l r),
    StableHlo.unary main_arg23 main_v128 (broadcastInDim S1x64 ![1] bcast_S64_S1x64_1),
    StableHlo.unary main_v128 main_v129 (broadcastInDim S50000x64 ![0, 1] bcast_S1x64_S50000x64_0_1),
    StableHlo.binary main_v127 main_v129 main_v130 addf,
    StableHlo.TRef.nullary main_call6.cst (constant S_ .f32 0x00000000#32),
    StableHlo.TRef.unary main_call6.cst main_call6.v0 (broadcastInDim S50000x64 ![] bcast_S_S50000x64),
    StableHlo.TRef.binary (.of main_v130) main_call6.v0 main_call6.v1 maximumf,
    StableHlo.binary main_v131 main_arg24 main_v132 (fun l r => Host.dotGeneral dot_S50000x64_S64x64_S50000x64_1_0_0_1_n_n none l r),
    StableHlo.unary main_arg25 main_v133 (broadcastInDim S1x64 ![1] bcast_S64_S1x64_1),
    StableHlo.unary main_v133 main_v134 (broadcastInDim S50000x64 ![0, 1] bcast_S1x64_S50000x64_0_1),
    StableHlo.binary main_v132 main_v134 main_v135 addf,
    StableHlo.unary main_arg28 main_v136 (broadcastInDim S1x64 ![1] bcast_S64_S1x64_1),
    StableHlo.unary main_v136 main_v137 (broadcastInDim S50000x64 ![0, 1] bcast_S1x64_S50000x64_0_1),
    StableHlo.binary main_v135 main_v137 main_v138 subf,
    StableHlo.nullary main_cst_19 (constant S_ .f32 0x3727C5AC#32),
    StableHlo.unary main_cst_19 main_v139 (broadcastInDim S64 ![] bcast_S_S64),
    StableHlo.binary main_arg29 main_v139 main_v140 addf,
    StableHlo.unary main_v140 main_v141 Host.rsqrt,
    StableHlo.unary main_v141 main_v142 (broadcastInDim S1x64 ![1] bcast_S64_S1x64_1),
    StableHlo.unary main_v142 main_v143 (broadcastInDim S50000x64 ![0, 1] bcast_S1x64_S50000x64_0_1),
    StableHlo.binary main_v138 main_v143 main_v144 mulf,
    StableHlo.unary main_arg26 main_v145 (broadcastInDim S1x64 ![1] bcast_S64_S1x64_1),
    StableHlo.unary main_v145 main_v146 (broadcastInDim S50000x64 ![0, 1] bcast_S1x64_S50000x64_0_1),
    StableHlo.binary main_v144 main_v146 main_v147 mulf,
    StableHlo.unary main_arg27 main_v148 (broadcastInDim S1x64 ![1] bcast_S64_S1x64_1),
    StableHlo.unary main_v148 main_v149 (broadcastInDim S50000x64 ![0, 1] bcast_S1x64_S50000x64_0_1),
    StableHlo.binary main_v147 main_v149 main_v150 addf,
    StableHlo.TRef.nullary main_call7.cst (constant S_ .f32 0x00000000#32),
    StableHlo.TRef.unary main_call7.cst main_call7.v0 (broadcastInDim S50000x64 ![] bcast_S_S50000x64),
    StableHlo.TRef.binary (.of main_v150) main_call7.v0 main_call7.v1 maximumf,
    StableHlo.binary main_v89 main_arg30 main_v152 (fun l r => Host.dotGeneral dot_S50000x128_S128x64_S50000x64_1_0_0_1_n_n none l r),
    StableHlo.unary main_arg31 main_v153 (broadcastInDim S1x64 ![1] bcast_S64_S1x64_1),
    StableHlo.unary main_v153 main_v154 (broadcastInDim S50000x64 ![0, 1] bcast_S1x64_S50000x64_0_1),
    StableHlo.binary main_v152 main_v154 main_v155 addf,
    StableHlo.binary main_v155 main_v151 main_v156 addf ]

abbrev w8_W : List (Ref sig .tc) :=
  [main_v126, main_v127, main_v128, main_v129, main_v130, main_call6.cst.ref, main_call6.v0.ref, main_call6.v1.ref, main_v132, main_v133, main_v134, main_v135, main_v136, main_v137, main_v138, main_cst_19, main_v139, main_v140, main_v141, main_v142, main_v143, main_v144, main_v145, main_v146, main_v147, main_v148, main_v149, main_v150, main_call7.cst.ref, main_call7.v0.ref, main_call7.v1.ref, main_v152, main_v153, main_v154, main_v155, main_v156]

abbrev w9a : List (HloOp τ sig (Elt F)) :=
  [ StableHlo.binary main_v156 main_arg32 main_v157 (fun l r => Host.dotGeneral dot_S50000x64_S64x32_S50000x32_1_0_0_1_n_n none l r) ]

abbrev w9b : List (HloOp τ sig (Elt F)) :=
  [ StableHlo.unary main_arg33 main_v158 (broadcastInDim S1x32 ![1] bcast_S32_S1x32_1),
    StableHlo.unary main_v158 main_v159 (broadcastInDim S50000x32 ![0, 1] bcast_S1x32_S50000x32_0_1),
    StableHlo.binary main_v157 main_v159 main_v160 addf,
    StableHlo.TRef.nullary main_call8.cst (constant S_ .f32 0x00000000#32),
    StableHlo.TRef.unary main_call8.cst main_call8.v0 (broadcastInDim S50000x32 ![] bcast_S_S50000x32),
    StableHlo.TRef.binary (.of main_v160) main_call8.v0 main_call8.v1 maximumf,
    StableHlo.binary main_v161 main_arg34 main_v162 (fun l r => Host.dotGeneral dot_S50000x32_S32x1_S50000x1_1_0_0_1_n_n none l r),
    StableHlo.unary main_arg35 main_v163 (broadcastInDim S1x1 ![1] bcast_S1_S1x1_1),
    StableHlo.unary main_v163 main_v164 (broadcastInDim S50000x1 ![0, 1] bcast_S1x1_S50000x1_0_1),
    StableHlo.binary main_v162 main_v164 main_v165 addf,
    StableHlo.reshape main_v165 main_v166 rfl shapeCasts_S50000x1_S50000 ]

abbrev w9 : List (HloOp τ sig (Elt F)) := w9a ++ w9b

abbrev w9_W : List (Ref sig .tc) :=
  [main_v157, main_v158, main_v159, main_v160, main_call8.cst.ref, main_call8.v0.ref, main_call8.v1.ref, main_v162, main_v163, main_v164, main_v165, main_v166]

abbrev ops : List (HloOp τ sig (Elt F)) := w0 ++ w1 ++ w2 ++ w3 ++ w4 ++ w5 ++ w6 ++ w7 ++ w8 ++ w9

end Cert.RefRun

end
-- ==== Proof.Ref.Run.lean ====
import proofs.«418876_j14568529068621_1_alg».proof.Proof.Ref.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq (w0 ++ (w1 ++ (w2 ++ w3a))) := by
  simp only [main_part0, fn_var.body, fn_where.body, fn_relu.body, fn_relu_0.body, List.cons_append, List.nil_append,
    seq, bind_assoc, pure_bind]
  rfl

theorem main_part1_eq (c : Dev nD) : main_part1 (F := F) c = seq (w3b ++ (w4 ++ w5a)) := by
  simp only [main_part1, fn_relu.body, List.cons_append, List.nil_append, seq, bind_assoc, pure_bind]
  rfl

theorem main_part2_eq (c : Dev nD) : main_part2 (F := F) c = seq (w5b ++ (w6 ++ (w7 ++ (w8 ++ w9a)))) := by
  simp only [main_part2, fn_relu_1.body, fn_relu_2.body, List.cons_append, List.nil_append, seq, bind_assoc, pure_bind]
  rfl

theorem main_part3_eq (c : Dev nD) : main_part3 (F := F) c = seq w9b := by
  simp only [main_part3, fn_relu_3.body, seq, bind_assoc, pure_bind]
  rfl

theorem main_eq (c : Dev nD) : main (F := F) c = seq ops := by
  rw [show (ops : List (HloOp τ sig (Elt F)))
      = (w0 ++ (w1 ++ (w2 ++ w3a))) ++ ((w3b ++ (w4 ++ w5a)) ++ ((w5b ++ (w6 ++ (w7 ++ (w8 ++ w9a)))) ++ w9b)) by
    simp only [ops, w3, w5, w9, List.append_assoc]]
  simp only [main, main_part0_eq, main_part1_eq, main_part2_eq, main_part3_eq, seq_append, bind_assoc]

theorem ops_fine : (ops : List (HloOp τ sig (Elt F))).Forall fun op => op.bufs ⊆ tcRefs τ sig ∧ op.fresh = ∅ := by
  simp only [ops, w0, w1, w2, w3, w3a, w3b, w4, w5, w5a, w5b, w6, w7, w8, w9, w9a, w9b, List.cons_append, List.nil_append,
    List.Forall, nullary_bufs_sub, unary_bufs_sub, binary_bufs_sub, ternary_bufs_sub, reshape_bufs_sub, nary_bufs_sub, true_and]
  and_intros <;> rfl

theorem run (m' : (ℓ : Loc nD τ sig) → Buf (Elt F) ℓ) (ρ' : Dev nD → PrngReg) :
    θ_run defs (onTc (τ := τ) (main (F := F))) ⟨m', fun _ => 0, ρ'⟩ fun r =>
      ∀ (c : Dev nD) (b : Ref sig .tc),
        r.2.mem ((c.tc : Thread nD τ).loc b) = after ops (launchContents m' c) (b : DevRef τ sig) :=
  run_seq (by decide) (by decide) defs main (fun _ => ops) main_eq (fun _ => ops_fine.imp fun _ h => h.1) m' ρ'
    (fun _ op h => (List.forall_iff_forall_mem.mp ops_fine op h).2)

end Cert.RefRun

end
-- ==== Proof.St0.Ref.lean ====
import proofs.«418876_j14568529068621_1_alg».proof.ReferenceIdeal

noncomputable section

namespace Cert.St0

open Idealize.ShloMosaic Idealize.SL.Sem
open Cert.ReferenceIdeal
open Cert.ReferenceIdeal.Facts₀ Cert.ReferenceIdeal.Facts

variable {F : FTy → Type} [FloatOps F] [Cert.ReferenceIdeal.Facts]

/-- Each row normalised by its mean and variance, scaled and shifted, times W plus pb, its positive part. -/
def ref (x : Vec F S50000x130 .f32) (g b : Vec F S130 .f32) (W : Vec F S130x128 .f32) (pb : Vec F S128 .f32) :
    Vec F S50000x128 .f32 :=
  maximumf
    (addf
      (Host.dotGeneral dot_S50000x130_S130x128_S50000x128_1_0_0_1_n_n none
        (addf
          (mulf
            (mulf
              (subf x
                (broadcastInDim S50000x130 ![0, 1] bcast_S50000x1_S50000x130_0_1
                  (Host.divf
                    (broadcastInDim S50000x1 ![0] bcast_S50000_S50000x1_0
                      (Host.reduceAdd x (constant S_ .f32 0x00000000#32) reducesTo_S50000x130_S50000_d1 h_S_))
                    (broadcastInDim S50000x1 ![] bcast_S_S50000x1 (constant S_ .f32 0x43020000#32)))))
              (broadcastInDim S50000x130 ![0, 1] bcast_S50000x1_S50000x130_0_1
                (Host.rsqrt
                  (addf
                    (select
                      (broadcastInDim S50000x1 ![] bcast_S_S50000x1
                        (cmpf (F := F) .ogt (subf (constant S_ .f32 0x43020000#32) (sitofp .f32 (constantI S_ 32 0#32)))
                          (constant S_ .f32 0x00000000#32)))
                      (Host.divf
                        (broadcastInDim S50000x1 ![0] bcast_S50000_S50000x1_0
                          (Host.reduceAdd
                            (mulf
                              (subf x
                                (broadcastInDim S50000x130 ![0, 1] bcast_S50000x1_S50000x130_0_1
                                  (Host.divf
                                    (broadcastInDim S50000x1 ![0] bcast_S50000_S50000x1_0
                                      (Host.reduceAdd x (constant S_ .f32 0x00000000#32) reducesTo_S50000x130_S50000_d1 h_S_))
                                    (broadcastInDim S50000x1 ![] bcast_S_S50000x1 (constant S_ .f32 0x43020000#32)))))
                              (subf x
                                (broadcastInDim S50000x130 ![0, 1] bcast_S50000x1_S50000x130_0_1
                                  (Host.divf
                                    (broadcastInDim S50000x1 ![0] bcast_S50000_S50000x1_0
                                      (Host.reduceAdd x (constant S_ .f32 0x00000000#32) reducesTo_S50000x130_S50000_d1 h_S_))
                                    (broadcastInDim S50000x1 ![] bcast_S_S50000x1 (constant S_ .f32 0x43020000#32))))))
                            (constant S_ .f32 0x00000000#32) reducesTo_S50000x130_S50000_d1 h_S_))
                        (broadcastInDim S50000x1 ![] bcast_S_S50000x1
                          (subf (constant S_ .f32 0x43020000#32) (sitofp .f32 (constantI S_ 32 0#32)))))
                      (broadcastInDim S50000x1 ![] bcast_S_S50000x1 (id (constant S_ .f32 0x7FC00000#32))))
                    (broadcastInDim S50000x1 ![] bcast_S_S50000x1 (constant S_ .f32 0x3727C5AC#32))))))
            (broadcastInDim S50000x130 ![0, 1] bcast_S1x130_S50000x130_0_1 (broadcastInDim S1x130 ![1] bcast_S130_S1x130_1 g)))
          (broadcastInDim S50000x130 ![0, 1] bcast_S1x130_S50000x130_0_1 (broadcastInDim S1x130 ![1] bcast_S130_S1x130_1 b)))
        W)
      (broadcastInDim S50000x128 ![0, 1] bcast_S1x128_S50000x128_0_1 (broadcastInDim S1x128 ![1] bcast_S128_S1x128_1 pb)))
    (broadcastInDim S50000x128 ![] bcast_S_S50000x128 (constant S_ .f32 0x00000000#32))

end Cert.St0
-- ==== Proof.St1.Ref.lean ====
import proofs.«418876_j14568529068621_1_alg».proof.ReferenceIdeal

namespace Cert.St1

open Idealize.ShloMosaic Idealize.SL.Sem
open Cert.ReferenceIdeal
open Cert.ReferenceIdeal.Facts₀ Cert.ReferenceIdeal.Facts

variable {F : FTy → Type} [FloatOps F] [Cert.ReferenceIdeal.Facts]

/-- The two-layer network of the reference: max([xd | xs | ea] · W₁ + b₁, 0) · W₂ + b₂. -/
noncomputable def ref
    (xd xs : Vec F S400000x128 .f32) (ea : Vec F S400000x27 .f32) (mW1 : Vec F S283x128 .f32) (mb1 : Vec F S128 .f32)
    (mW2 : Vec F S128x128 .f32) (mb2 : Vec F S128 .f32) : Vec F S400000x128 .f32 :=
  addf
    (Host.dotGeneral dot_S400000x128_S128x128_S400000x128_1_0_0_1_n_n none
      (maximumf
        (addf
          (Host.dotGeneral dot_S400000x283_S283x128_S400000x128_1_0_0_1_n_n none
            (concatenate S400000x283 1 [⟨S400000x128, xd⟩, ⟨S400000x128, xs⟩, ⟨S400000x27, ea⟩]
              concatenates_S400000x128_S400000x128_S400000x27_S400000x283_d1)
            mW1)
          (broadcastInDim S400000x128 ![0, 1] bcast_S1x128_S400000x128_0_1
            (broadcastInDim S1x128 ![1] bcast_S128_S1x128_1 mb1)))
        (broadcastInDim S400000x128 ![] bcast_S_S400000x128
          (constant S_ .f32 0x00000000#32)))
      mW2)
    (broadcastInDim S400000x128 ![0, 1] bcast_S1x128_S400000x128_0_1
      (broadcastInDim S1x128 ![1] bcast_S128_S1x128_1 mb2))

end Cert.St1
-- ==== Proof.St2.Ref.lean ====
import proofs.«418876_j14568529068621_1_alg».proof.ReferenceIdeal

noncomputable section

namespace Cert.St2

open Idealize.ShloMosaic Idealize.SL.Sem
open Cert.ReferenceIdeal Cert.ReferenceIdeal.Facts₀ Cert.ReferenceIdeal.Facts

variable {F : FTy → Type} [FloatOps F] [Cert.ReferenceIdeal.Facts]

def ref (h agg : Vec F S50000x128 .f32) (uW1 : Vec F S256x128 .f32) (ub1 : Vec F S128 .f32) (uW2 : Vec F S128x128 .f32)
    (ub2 bnG bnB bnM bnV : Vec F S128 .f32) : Vec F S50000x128 .f32 :=
  addf h
    (maximumf
      (addf
        (mulf
          (mulf
            (subf
              (addf
                (Host.dotGeneral dot_S50000x128_S128x128_S50000x128_1_0_0_1_n_n none
                  (maximumf
                    (addf
                      (Host.dotGeneral dot_S50000x256_S256x128_S50000x128_1_0_0_1_n_n none
                        (concatenate S50000x256 1 [⟨S50000x128, h⟩, ⟨S50000x128, agg⟩] concatenates_S50000x128_S50000x128_S50000x256_d1)
                        uW1)
                      (broadcastInDim S50000x128 ![0, 1] bcast_S1x128_S50000x128_0_1 (broadcastInDim S1x128 ![1] bcast_S128_S1x128_1 ub1)))
                    (broadcastInDim S50000x128 ![] bcast_S_S50000x128 (constant S_ .f32 0x00000000#32)))
                  uW2)
                (broadcastInDim S50000x128 ![0, 1] bcast_S1x128_S50000x128_0_1 (broadcastInDim S1x128 ![1] bcast_S128_S1x128_1 ub2)))
              (broadcastInDim S50000x128 ![0, 1] bcast_S1x128_S50000x128_0_1 (broadcastInDim S1x128 ![1] bcast_S128_S1x128_1 bnM)))
            (broadcastInDim S50000x128 ![0, 1] bcast_S1x128_S50000x128_0_1
              (broadcastInDim S1x128 ![1] bcast_S128_S1x128_1
                (Host.rsqrt (addf bnV (broadcastInDim S128 ![] bcast_S_S128 (constant S_ .f32 0x3727C5AC#32)))))))
          (broadcastInDim S50000x128 ![0, 1] bcast_S1x128_S50000x128_0_1 (broadcastInDim S1x128 ![1] bcast_S128_S1x128_1 bnG)))
        (broadcastInDim S50000x128 ![0, 1] bcast_S1x128_S50000x128_0_1 (broadcastInDim S1x128 ![1] bcast_S128_S1x128_1 bnB)))
      (broadcastInDim S50000x128 ![] bcast_S_S50000x128 (constant S_ .f32 0x00000000#32)))

end Cert.St2

end
-- ==== Proof.St3.Ref.lean ====
import proofs.«418876_j14568529068621_1_alg».proof.ReferenceIdeal

noncomputable section

namespace Cert.St3

open Idealize.ShloMosaic Idealize.SL.Sem
open Cert.ReferenceIdeal Cert.ReferenceIdeal.Facts₀ Cert.ReferenceIdeal.Facts

variable {F : FTy → Type} [FloatOps F] [Cert.ReferenceIdeal.Facts]

/-- The two-layer network of the reference: max([xd | xs | ea] · W₁ + b₁, 0) · W₂ + b₂. -/
def ref
    (xd xs : Vec F S400000x128 .f32) (ea : Vec F S400000x27 .f32) (w1 : Vec F S283x64 .f32) (b1 : Vec F S64 .f32)
    (w2 : Vec F S64x64 .f32) (b2 : Vec F S64 .f32) : Vec F S400000x64 .f32 :=
  addf
    (Host.dotGeneral dot_S400000x64_S64x64_S400000x64_1_0_0_1_n_n none
      (maximumf
        (addf
          (Host.dotGeneral dot_S400000x283_S283x64_S400000x64_1_0_0_1_n_n none
            (concatenate S400000x283 1
              [⟨S400000x128, xd⟩, ⟨S400000x128, xs⟩, ⟨S400000x27, ea⟩]
              concatenates_S400000x128_S400000x128_S400000x27_S400000x283_d1)
            w1)
          (broadcastInDim S400000x64 ![0, 1] bcast_S1x64_S400000x64_0_1
            (broadcastInDim S1x64 ![1] bcast_S64_S1x64_1 b1)))
        (broadcastInDim S400000x64 ![] bcast_S_S400000x64
          (constant S_ .f32 0x00000000#32)))
      w2)
    (broadcastInDim S400000x64 ![0, 1] bcast_S1x64_S400000x64_0_1
      (broadcastInDim S1x64 ![1] bcast_S64_S1x64_1 b2))

end Cert.St3
-- ==== Proof.St4.Ref.lean ====
import proofs.«418876_j14568529068621_1_alg».proof.ReferenceIdeal

noncomputable section

namespace Cert.St4

open Idealize.ShloMosaic Idealize.SL.Sem
open Cert.ReferenceIdeal Cert.ReferenceIdeal.Facts₀ Cert.ReferenceIdeal.Facts

variable {F : FTy → Type} [FloatOps F] [Cert.ReferenceIdeal.Facts]

def ref (hA : Vec F S50000x128 .f32) (agg : Vec F S50000x64 .f32) (uW1 : Vec F S192x64 .f32) (ub1 : Vec F S64 .f32)
    (uW2 : Vec F S64x64 .f32) (ub2 bng bnb bnm bnv : Vec F S64 .f32) (resW : Vec F S128x64 .f32) (resb : Vec F S64 .f32) :
    Vec F S50000x64 .f32 :=
  addf
    (addf (Host.dotGeneral dot_S50000x128_S128x64_S50000x64_1_0_0_1_n_n none hA resW)
      (broadcastInDim S50000x64 ![0, 1] bcast_S1x64_S50000x64_0_1 (broadcastInDim S1x64 ![1] bcast_S64_S1x64_1 resb)))
    (maximumf
      (addf
        (mulf
          (mulf
            (subf
              (addf
                (Host.dotGeneral dot_S50000x64_S64x64_S50000x64_1_0_0_1_n_n none
                  (maximumf
                    (addf
                      (Host.dotGeneral dot_S50000x192_S192x64_S50000x64_1_0_0_1_n_n none
                        (concatenate S50000x192 1 [⟨S50000x128, hA⟩, ⟨S50000x64, agg⟩] concatenates_S50000x128_S50000x64_S50000x192_d1)
                        uW1)
                      (broadcastInDim S50000x64 ![0, 1] bcast_S1x64_S50000x64_0_1 (broadcastInDim S1x64 ![1] bcast_S64_S1x64_1 ub1)))
                    (broadcastInDim S50000x64 ![] bcast_S_S50000x64 (constant S_ .f32 0x00000000#32)))
                  uW2)
                (broadcastInDim S50000x64 ![0, 1] bcast_S1x64_S50000x64_0_1 (broadcastInDim S1x64 ![1] bcast_S64_S1x64_1 ub2)))
              (broadcastInDim S50000x64 ![0, 1] bcast_S1x64_S50000x64_0_1 (broadcastInDim S1x64 ![1] bcast_S64_S1x64_1 bnm)))
            (broadcastInDim S50000x64 ![0, 1] bcast_S1x64_S50000x64_0_1 (broadcastInDim S1x64 ![1] bcast_S64_S1x64_1 (Host.rsqrt (addf bnv (broadcastInDim S64 ![] bcast_S_S64 (constant S_ .f32 0x3727C5AC#32)))))))
          (broadcastInDim S50000x64 ![0, 1] bcast_S1x64_S50000x64_0_1 (broadcastInDim S1x64 ![1] bcast_S64_S1x64_1 bng)))
        (broadcastInDim S50000x64 ![0, 1] bcast_S1x64_S50000x64_0_1 (broadcastInDim S1x64 ![1] bcast_S64_S1x64_1 bnb)))
      (broadcastInDim S50000x64 ![] bcast_S_S50000x64 (constant S_ .f32 0x00000000#32)))

end Cert.St4

end
-- ==== Proof.St5.Ref.lean ====
import proofs.«418876_j14568529068621_1_alg».proof.ReferenceIdeal

noncomputable section

namespace Cert.St5

open Idealize.ShloMosaic
open Cert.ReferenceIdeal
open Cert.ReferenceIdeal.Facts₀ Cert.ReferenceIdeal.Facts

variable {F : FTy → Type} [FloatOps F] [Cert.ReferenceIdeal.Facts]

/-- The positive part of h W1 + b1, times W2, plus b2, its only column kept. -/
def ref (h : Vec F S50000x64 .f32) (w1 : Vec F S64x32 .f32) (b1 : Vec F S32 .f32) (w2 : Vec F S32x1 .f32)
    (b2 : Vec F S1 .f32) : Vec F S50000 .f32 :=
  fun i => shapeCast S50000
    (addf
      (Host.dotGeneral dot_S50000x32_S32x1_S50000x1_1_0_0_1_n_n none
        (maximumf
          (addf
            (Host.dotGeneral dot_S50000x64_S64x32_S50000x32_1_0_0_1_n_n none h w1)
            (broadcastInDim S50000x32 ![0, 1]
              bcast_S1x32_S50000x32_0_1 (broadcastInDim S1x32 ![1] bcast_S32_S1x32_1 b1)))
          (broadcastInDim S50000x32 ![] bcast_S_S50000x32 (constant S_ .f32 0x00000000#32)))
        w2)
      (broadcastInDim S50000x1 ![0, 1]
        bcast_S1x1_S50000x1_0_1 (broadcastInDim S1x1 ![1] bcast_S1_S1x1_1 b2)))
    shapeCasts_S50000x1_S50000 i

end Cert.St5
-- ==== Proof.Glue.Defs.lean ====
import proofs.«418876_j14568529068621_1_alg».proof.KernelIdeal
import proofs.«418876_j14568529068621_1_alg».proof.ReferenceIdeal

noncomputable section

namespace Cert.Glue

open Idealize.ShloMosaic

variable {F : FTy → Type} [FloatOps F]

section Kernel
open Cert.KernelIdeal Cert.KernelIdeal.Facts₀ Cert.KernelIdeal.Facts
variable [Cert.KernelIdeal.Facts]

def InRange (ei : Vec F S2x400000 .i32) : Prop :=
  ∀ i, 0 ≤ (ei i).toInt ∧ (ei i).toInt < 50000

def srcOf (ei : Vec F S2x400000 .i32) : Vec F S400000 .i32 :=
  shapeCast S400000 (extractStridedSlice S1x400000 ![0, 0] ei slices_S2x400000_S1x400000_0_0) shapeCasts_S1x400000_S400000

def dstOf (ei : Vec F S2x400000 .i32) : Vec F S400000 .i32 :=
  shapeCast S400000 (extractStridedSlice S1x400000 ![1, 0] ei slices_S2x400000_S1x400000_1_0) shapeCasts_S1x400000_S400000

def takeK (h : Vec F S50000x128 .f32) (idx : Vec F S400000 .i32) :
    Vec F S400000x128 .f32 :=
  select
    (broadcastInDim S400000x128 ![0] bcast_S400000_S400000x128_0
      (Host.reduce IntOp.andi
        (andi
          (cmpi .sge
            (broadcastInDim S400000x1 ![0] bcast_S400000_S400000x1_0
              (select (cmpi .slt idx (broadcastInDim S400000 ![] bcast_S_S400000 (constantI S_ 32 0#32)))
                (addi idx (broadcastInDim S400000 ![] bcast_S_S400000 (constantI S_ 32 50000#32))) idx))
            (broadcastInDim S400000x1 ![] bcast_S_S400000x1 (constantI S_ 32 0#32)))
          (cmpi .sle
            (broadcastInDim S400000x1 ![0] bcast_S400000_S400000x1_0
              (select (cmpi .slt idx (broadcastInDim S400000 ![] bcast_S_S400000 (constantI S_ 32 0#32)))
                (addi idx (broadcastInDim S400000 ![] bcast_S_S400000 (constantI S_ 32 50000#32))) idx))
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 h
      (broadcastInDim S400000x1 ![0] bcast_S400000_S400000x1_0
        (select (cmpi .slt idx (broadcastInDim S400000 ![] bcast_S_S400000 (constantI S_ 32 0#32)))
          (addi idx (broadcastInDim S400000 ![] bcast_S_S400000 (constantI S_ 32 50000#32))) idx)))
    (broadcastInDim S400000x128 ![] bcast_S_S400000x128 (constant S_ .f32 0x7FC00000#32))

def degOf (dst : Vec F S400000 .i32) : Vec F S50000 .f32 :=
  Host.scatterAdd scatter_S50000_S400000x1_S400000_n_0_0_1
    (broadcastInDim S50000 ![] bcast_S_S50000 (constant S_ .f32 0x00000000#32))
    (broadcastInDim S400000x1 ![0] bcast_S400000_S400000x1_0 dst)
    (broadcastInDim S400000 ![] bcast_S_S400000 (constant S_ .f32 0x3F800000#32))

def meanBy128 (msg : Vec F S400000x128 .f32) (dst : Vec F S400000 .i32)
    (deg : Vec F S50000 .f32) : Vec F S50000x128 .f32 :=
  Host.divf
    (Host.scatterAdd scatter_S50000x128_S400000x1_S400000x128_1_0_0_1
      (broadcastInDim S50000x128 ![] bcast_S_S50000x128 (constant S_ .f32 0x00000000#32))
      (broadcastInDim S400000x1 ![0] bcast_S400000_S400000x1_0 dst) msg)
    (broadcastInDim S50000x128 ![0, 1] bcast_S50000x1_S50000x128_0_1
      (broadcastInDim S50000x1 ![0] bcast_S50000_S50000x1_0
        (maximumf deg (broadcastInDim S50000 ![] bcast_S_S50000 (constant S_ .f32 0x3F800000#32)))))

def meanBy64 (msg : Vec F S400000x64 .f32) (dst : Vec F S400000 .i32)
    (deg : Vec F S50000 .f32) : Vec F S50000x64 .f32 :=
  Host.divf
    (Host.scatterAdd scatter_S50000x64_S400000x1_S400000x64_1_0_0_1
      (broadcastInDim S50000x64 ![] bcast_S_S50000x64 (constant S_ .f32 0x00000000#32))
      (broadcastInDim S400000x1 ![0] bcast_S400000_S400000x1_0 dst) msg)
    (broadcastInDim S50000x64 ![0, 1] bcast_S50000x1_S50000x64_0_1
      (broadcastInDim S50000x1 ![0] bcast_S50000_S50000x1_0
        (maximumf deg (broadcastInDim S50000 ![] bcast_S_S50000 (constant S_ .f32 0x3F800000#32)))))

def scatterMean128 (msg : Vec F S400000x128 .f32) (dst : Vec F S400000 .i32) :
    Vec F S50000x128 .f32 :=
  meanBy128 msg dst (degOf dst)

def scatterMean64 (msg : Vec F S400000x64 .f32) (dst : Vec F S400000 .i32) :
    Vec F S50000x64 .f32 :=
  meanBy64 msg dst (degOf dst)

end Kernel

section Reference
open Cert.ReferenceIdeal Cert.ReferenceIdeal.Facts₀ Cert.ReferenceIdeal.Facts
variable [Cert.ReferenceIdeal.Facts]

def srcOfR (ei : Vec F S2x400000 .i32) : Vec F S400000 .i32 :=
  shapeCast S400000 (extractStridedSlice S1x400000 ![0, 0] ei slices_S2x400000_S1x400000_0_0) shapeCasts_S1x400000_S400000

def dstOfR (ei : Vec F S2x400000 .i32) : Vec F S400000 .i32 :=
  shapeCast S400000 (extractStridedSlice S1x400000 ![1, 0] ei slices_S2x400000_S1x400000_1_0) shapeCasts_S1x400000_S400000

def gatherR (h : Vec F S50000x128 .f32) (idx : Vec F S400000 .i32) :
    Vec F S400000x128 .f32 :=
  Host.gather gather_S50000x128_S400000x1_S400000x128_1_0_n_n_0_1_1128 h
    (broadcastInDim S400000x1 ![0] bcast_S400000_S400000x1_0
      (select (cmpi .slt idx (broadcastInDim S400000 ![] bcast_S_S400000 (constantI S_ 32 0#32)))
        (addi idx (broadcastInDim S400000 ![] bcast_S_S400000 (constantI S_ 32 50000#32))) idx))

def degOfR (dst : Vec F S400000 .i32) : Vec F S50000 .f32 :=
  Host.scatterAdd scatter_S50000_S400000x1_S400000_n_0_0_1
    (broadcastInDim S50000 ![] bcast_S_S50000 (constant S_ .f32 0x00000000#32))
    (broadcastInDim S400000x1 ![0] bcast_S400000_S400000x1_0 dst)
    (broadcastInDim S400000 ![] bcast_S_S400000 (constant S_ .f32 0x3F800000#32))

def meanBy128R (msg : Vec F S400000x128 .f32) (dst : Vec F S400000 .i32)
    (deg : Vec F S50000 .f32) : Vec F S50000x128 .f32 :=
  Host.divf
    (Host.scatterAdd scatter_S50000x128_S400000x1_S400000x128_1_0_0_1
      (broadcastInDim S50000x128 ![] bcast_S_S50000x128 (constant S_ .f32 0x00000000#32))
      (broadcastInDim S400000x1 ![0] bcast_S400000_S400000x1_0 dst) msg)
    (broadcastInDim S50000x128 ![0, 1] bcast_S50000x1_S50000x128_0_1
      (broadcastInDim S50000x1 ![0] bcast_S50000_S50000x1_0
        (maximumf deg (broadcastInDim S50000 ![] bcast_S_S50000 (constant S_ .f32 0x3F800000#32)))))

def meanBy64R (msg : Vec F S400000x64 .f32) (dst : Vec F S400000 .i32)
    (deg : Vec F S50000 .f32) : Vec F S50000x64 .f32 :=
  Host.divf
    (Host.scatterAdd scatter_S50000x64_S400000x1_S400000x64_1_0_0_1
      (broadcastInDim S50000x64 ![] bcast_S_S50000x64 (constant S_ .f32 0x00000000#32))
      (broadcastInDim S400000x1 ![0] bcast_S400000_S400000x1_0 dst) msg)
    (broadcastInDim S50000x64 ![0, 1] bcast_S50000x1_S50000x64_0_1
      (broadcastInDim S50000x1 ![0] bcast_S50000_S50000x1_0
        (maximumf deg (broadcastInDim S50000 ![] bcast_S_S50000 (constant S_ .f32 0x3F800000#32)))))

def scatterMean128R (msg : Vec F S400000x128 .f32) (dst : Vec F S400000 .i32) :
    Vec F S50000x128 .f32 :=
  meanBy128R msg dst (degOfR dst)

def scatterMean64R (msg : Vec F S400000x64 .f32) (dst : Vec F S400000 .i32) :
    Vec F S50000x64 .f32 :=
  meanBy64R msg dst (degOfR dst)

end Reference

end Cert.Glue
-- ==== Proof.Ref.Value.lean ====
import proofs.«418876_j14568529068621_1_alg».proof.Proof.Ref.Ops
import proofs.«418876_j14568529068621_1_alg».proof.Proof.St0.Ref
import proofs.«418876_j14568529068621_1_alg».proof.Proof.St1.Ref
import proofs.«418876_j14568529068621_1_alg».proof.Proof.St2.Ref
import proofs.«418876_j14568529068621_1_alg».proof.Proof.St3.Ref
import proofs.«418876_j14568529068621_1_alg».proof.Proof.St4.Ref
import proofs.«418876_j14568529068621_1_alg».proof.Proof.St5.Ref
import proofs.«418876_j14568529068621_1_alg».proof.Proof.Glue.Defs
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev WritesIn (w : List (HloOp τ sig (Elt F))) (W : List (Ref sig .tc)) : Prop :=
  w.Forall fun op => op.writes ⊆ (W.map (Proc.devRef (τ := τ) .tc)).toFinset

macro "writes_window" : tactic =>
  `(tactic| (simp only [WritesIn, w3, w3a, w3b, w5, w5a, w5b, w9, w9a, w9b, List.cons_append, List.nil_append, List.Forall,
      nullary_writes, unary_writes, binary_writes, ternary_writes, reshape_writes, nary_writes,
      Finset.singleton_subset_iff, List.mem_toFinset]
             <;> and_intros <;> exact List.mem_map_of_mem (by decide)))

theorem w0_writes : WritesIn (F := F) w0 w0_W := by writes_window
theorem w1_writes : WritesIn (F := F) w1 w1_W := by writes_window
theorem w2_writes : WritesIn (F := F) w2 w2_W := by writes_window
theorem w3_writes : WritesIn (F := F) w3 w3_W := by writes_window
theorem w4_writes : WritesIn (F := F) w4 w4_W := by writes_window
theorem w5_writes : WritesIn (F := F) w5 w5_W := by writes_window
theorem w6_writes : WritesIn (F := F) w6 w6_W := by writes_window
theorem w7_writes : WritesIn (F := F) w7 w7_W := by writes_window
theorem w8_writes : WritesIn (F := F) w8 w8_W := by writes_window
theorem w9_writes : WritesIn (F := F) w9 w9_W := by writes_window

/-- An array outside a list that holds every array the operations write is the same after them as before. -/
theorem keep {w : List (HloOp τ sig (Elt F))} {W : List (Ref sig .tc)} (hW : WritesIn w W) (V : Valuation τ sig (Elt F))
    (r : Ref sig .tc) (h : r ∉ W) : after w V (no_index (Proc.devRef .tc r)) = V (Proc.devRef .tc r) :=
  after_of_writes_sub w V hW h

variable (V : Valuation τ sig (Elt F))

theorem w0_v1 : after w0 V (no_index ↑main_v1) = Cert.Glue.srcOfR (V main_arg36) := by
  simp only [w0]; after_results_simp; rfl
theorem w0_v3 : after w0 V (no_index ↑main_v3) = Cert.Glue.dstOfR (V main_arg36) := by
  simp only [w0]; after_results_simp; rfl
theorem w0_v26 : after w0 V (no_index ↑main_v26) = Cert.St0.ref (V main_arg0) (V main_arg2) (V main_arg3) (V main_arg4) (V main_arg5) := by
  simp only [w0]; after_results_simp; rfl
theorem w1_v33 : after w1 V (no_index ↑main_v33) = Cert.Glue.gatherR (V main_v26) (V main_v3) := by
  simp only [w1]; after_results_simp; rfl
theorem w1_v40 : after w1 V (no_index ↑main_v40) = Cert.Glue.gatherR (V main_v26) (V main_v1) := by
  simp only [w1]; after_results_simp; rfl
theorem w2_v50 : after w2 V (no_index ↑main_v50) = Cert.St1.ref (V main_v33) (V main_v40) (V main_arg1) (V main_arg6) (V main_arg7) (V main_arg8) (V main_arg9) := by
  simp only [w2]; after_results_simp; rfl
theorem w3_v62 : after w3 V (no_index ↑main_v62) = Cert.Glue.scatterMean128R (V main_v50) (V main_v3) := by
  simp only [w3, w3a, w3b, List.cons_append, List.nil_append]; after_results_simp; rfl
theorem w4_v89 : after w4 V (no_index ↑main_v89) = Cert.St2.ref (V main_v26) (V main_v62) (V main_arg10) (V main_arg11) (V main_arg12) (V main_arg13) (V main_arg14) (V main_arg15) (V main_arg16) (V main_arg17) := by
  simp only [w4]; after_results_simp; rfl
theorem w5_v96 : after w5 V (no_index ↑main_v96) = Cert.Glue.gatherR (V main_v89) (V main_v3) := by
  simp only [w5, w5a, w5b, List.cons_append, List.nil_append]; after_results_simp; rfl
theorem w5_v103 : after w5 V (no_index ↑main_v103) = Cert.Glue.gatherR (V main_v89) (V main_v1) := by
  simp only [w5, w5a, w5b, List.cons_append, List.nil_append]; after_results_simp; rfl
theorem w6_v113 : after w6 V (no_index ↑main_v113) = Cert.St3.ref (V main_v96) (V main_v103) (V main_arg1) (V main_arg18) (V main_arg19) (V main_arg20) (V main_arg21) := by
  simp only [w6]; after_results_simp; rfl
theorem w7_v125 : after w7 V (no_index ↑main_v125) = Cert.Glue.scatterMean64R (V main_v113) (V main_v3) := by
  simp only [w7]; after_results_simp; rfl
theorem w8_v156 : after w8 V (no_index ↑main_v156) = Cert.St4.ref (V main_v89) (V main_v125) (V main_arg22) (V main_arg23) (V main_arg24) (V main_arg25) (V main_arg26) (V main_arg27) (V main_arg28) (V main_arg29) (V main_arg30) (V main_arg31) := by
  simp only [w8]; after_results_simp; rfl
theorem w9_v166 : after w9 V (no_index ↑main_v166) = Cert.St5.ref (V main_v156) (V main_arg32) (V main_arg33) (V main_arg34) (V main_arg35) := by
  simp only [w9, w9a, w9b, List.cons_append, List.nil_append]; after_results_simp; rfl

abbrev ops_W : List (Ref sig .tc) :=
  w0_W ++ (w1_W ++ (w2_W ++ (w3_W ++ (w4_W ++ (w5_W ++ (w6_W ++ (w7_W ++ (w8_W ++ w9_W))))))))

theorem after_ops : after ops V
    = after w9 (after w8 (after w7 (after w6 (after w5 (after w4 (after w3 (after w2 (after w1 (after w0 V))))))))) := by
  simp only [ops, after_append]

/-- An array in none of the ten lists passes unchanged through the ten stretches one after the other. -/
theorem ops_keep (r : Ref sig .tc) (h : r ∉ ops_W) : after ops V (Proc.devRef .tc r) = V (Proc.devRef .tc r) := by
  simp only [ops_W, List.mem_append, not_or] at h
  obtain ⟨h0, h1, h2, h3, h4, h5, h6, h7, h8, h9⟩ := h
  rw [after_ops, keep w9_writes _ r h9, keep w8_writes _ r h8, keep w7_writes _ r h7, keep w6_writes _ r h6, keep w5_writes _ r h5,
    keep w4_writes _ r h4, keep w3_writes _ r h3, keep w2_writes _ r h2, keep w1_writes _ r h1, keep w0_writes _ r h0]

def conv1 (h : Vec F S50000x128 .f32) (ea : Vec F S400000x27 .f32) (src dst : Vec F S400000 .i32)
    (a6 : Vec F S283x128 .f32) (a7 : Vec F S128 .f32) (a8 : Vec F S128x128 .f32) (a9 : Vec F S128 .f32) (a10 : Vec F S256x128 .f32)
    (a11 : Vec F S128 .f32) (a12 : Vec F S128x128 .f32) (a13 a14 a15 a16 a17 : Vec F S128 .f32) : Vec F S50000x128 .f32 :=
  Cert.St2.ref h
    (Cert.Glue.scatterMean128R (Cert.St1.ref (Cert.Glue.gatherR h dst) (Cert.Glue.gatherR h src) ea a6 a7 a8 a9) dst)
    a10 a11 a12 a13 a14 a15 a16 a17

def conv2 (hA : Vec F S50000x128 .f32) (ea : Vec F S400000x27 .f32) (src dst : Vec F S400000 .i32)
    (a18 : Vec F S283x64 .f32) (a19 : Vec F S64 .f32) (a20 : Vec F S64x64 .f32) (a21 : Vec F S64 .f32) (a22 : Vec F S192x64 .f32)
    (a23 : Vec F S64 .f32) (a24 : Vec F S64x64 .f32) (a25 a26 a27 a28 a29 : Vec F S64 .f32) (a30 : Vec F S128x64 .f32)
    (a31 : Vec F S64 .f32) : Vec F S50000x64 .f32 :=
  Cert.St4.ref hA
    (Cert.Glue.scatterMean64R (Cert.St3.ref (Cert.Glue.gatherR hA dst) (Cert.Glue.gatherR hA src) ea a18 a19 a20 a21) dst)
    a22 a23 a24 a25 a26 a27 a28 a29 a30 a31

def model (a0 : Vec F S50000x130 .f32) (a1 : Vec F S400000x27 .f32) (a2 a3 : Vec F S130 .f32) (a4 : Vec F S130x128 .f32)
    (a5 : Vec F S128 .f32) (a6 : Vec F S283x128 .f32) (a7 : Vec F S128 .f32) (a8 : Vec F S128x128 .f32) (a9 : Vec F S128 .f32)
    (a10 : Vec F S256x128 .f32) (a11 : Vec F S128 .f32) (a12 : Vec F S128x128 .f32) (a13 a14 a15 a16 a17 : Vec F S128 .f32)
    (a18 : Vec F S283x64 .f32) (a19 : Vec F S64 .f32) (a20 : Vec F S64x64 .f32) (a21 : Vec F S64 .f32) (a22 : Vec F S192x64 .f32)
    (a23 : Vec F S64 .f32) (a24 : Vec F S64x64 .f32) (a25 a26 a27 a28 a29 : Vec F S64 .f32) (a30 : Vec F S128x64 .f32)
    (a31 : Vec F S64 .f32) (a32 : Vec F S64x32 .f32) (a33 : Vec F S32 .f32) (a34 : Vec F S32x1 .f32) (a35 : Vec F S1 .f32)
    (a36 : Vec F S2x400000 .i32) : Vec F S50000 .f32 :=
  Cert.St5.ref
    (conv2
      (conv1 (Cert.St0.ref a0 a2 a3 a4 a5) a1 (Cert.Glue.srcOfR a36) (Cert.Glue.dstOfR a36) a6 a7 a8 a9 a10 a11 a12 a13 a14 a15 a16 a17)
      a1 (Cert.Glue.srcOfR a36) (Cert.Glue.dstOfR a36) a18 a19 a20 a21 a22 a23 a24 a25 a26 a27 a28 a29 a30 a31)
    a32 a33 a34 a35

/-- The last stretch's result, each array it reads given by the stretch that computed it, all others carried through unchanged. -/
theorem value : after ops V main_v166
    = model (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) (V main_arg25) (V main_arg26) (V main_arg27) (V main_arg28) (V main_arg29) (V main_arg30) (V main_arg31) (V main_arg32) (V main_arg33) (V main_arg34) (V main_arg35) (V main_arg36) := by
  rw [after_ops]
  simp (disch := decide) only [model, conv1, conv2, w9_v166, w8_v156, w7_v125, w6_v113, w5_v103, w5_v96, w4_v89, w3_v62, w2_v50, w1_v40, w1_v33, w0_v26, w0_v3, w0_v1,
    keep w0_writes, keep w1_writes, keep w2_writes, keep w3_writes, keep w4_writes, keep w5_writes, keep w6_writes, keep w7_writes, keep w8_writes, keep w9_writes]

end Cert.RefRun

end
-- ==== Proof.RefFrame.lean ====
import proofs.«418876_j14568529068621_1_alg».proof.Defs
import proofs.«418876_j14568529068621_1_alg».proof.Proof.Gen.ReferenceIdeal
import proofs.«418876_j14568529068621_1_alg».proof.Proof.Gen.Pre_finite_inputs
import proofs.«418876_j14568529068621_1_alg».proof.Proof.Ref.Run
import proofs.«418876_j14568529068621_1_alg».proof.Proof.Ref.Value

noncomputable section

open Idealize.ShloMosaic Idealize.SL.Sem

namespace Cert.Proof.Frames

/-- The run ends with every array at the operations' fold over the launch contents, and no operation writes an argument. -/
theorem referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono
    (fun r h c => by and_intros <;> exact (h c _).trans (Cert.RefRun.ops_keep _ _ (by decide)))
    (Cert.RefRun.run (F := Ideal) m ρ)

end Cert.Proof.Frames

end
-- ==== Proof.KChain.Host.lean ====
import proofs.«418876_j14568529068621_1_alg».proof.Proof.Gen.KernelIdeal.Frame
import Idealize.ShloMosaic.Lib.StableHlo.Run
import proofs.«418876_j14568529068621_1_alg».proof.Proof.Glue.Defs

noncomputable section

namespace Cert.KChain

open Cert.KernelIdeal Cert.KernelIdeal.Gen
open Idealize.ShloMosaic Idealize.ShloMosaic.TcCoe

variable {F : FTy → Type} [FloatOps F]

theorem ofBuf_toBuf {Val : EltTy → Type} {T : BufTy} (x : StableHlo.TRef sig T) (v : T.Contents Val) : x.ofBuf (x.toBuf v) = v := by
  obtain ⟨r, rfl, h1, h2⟩ := x
  rfl

section Host
variable (X : Valuation τ sig (Elt F))

/-- If each operation writes one reference of a list, a reference outside the list keeps its contents. -/
theorem keep_of {ops : List (HloOp τ sig (Elt F))} {W : List (Ref sig .tc)}
    (h : List.Forall₂ (fun op y => op.writes = {Proc.devRef (τ := τ) .tc y}) ops W) (r : Ref sig .tc) (hr : r ∉ W) :
    StableHlo.after ops X (Proc.devRef .tc r) = X (Proc.devRef .tc r) := by
  induction h generalizing X with
  | nil => rfl
  | @cons op y ops W e _ ih =>
    rw [StableHlo.after_cons, ih _ fun h => hr (List.mem_cons_of_mem _ h), op.result_of_not_mem X]
    rw [e, Finset.mem_singleton]
    exact fun he => hr (Proc.devRef_injective _ he ▸ List.mem_cons_self)

theorem i1 : (StableHlo.TRef.of (T := ⟨S400000, .i32⟩) main_v1).ofBuf (X (Proc.devRef .tc main_v1)) = X (Proc.devRef .tc main_v1) := rfl
theorem i3 : (StableHlo.TRef.of (T := ⟨S400000, .i32⟩) main_v3).ofBuf (X (Proc.devRef .tc main_v3)) = X (Proc.devRef .tc main_v3) := rfl
theorem h7 : (StableHlo.TRef.of (T := ⟨S50000x128, .f32⟩) main_v7).ofBuf (X (Proc.devRef .tc main_v7)) = X (Proc.devRef .tc main_v7) := rfl
theorem h36 : (StableHlo.TRef.of (T := ⟨S50000x128, .f32⟩) main_v36).ofBuf (X (Proc.devRef .tc main_v36)) = X (Proc.devRef .tc main_v36) := rfl
theorem o8 (v : Vec F S400000x128 .f32) : (StableHlo.TRef.of (T := ⟨S400000x128, .f32⟩) main_v8).toBuf v = v := rfl
theorem o9 (v : Vec F S400000x128 .f32) : (StableHlo.TRef.of (T := ⟨S400000x128, .f32⟩) main_v9).toBuf v = v := rfl
theorem o37 (v : Vec F S400000x128 .f32) : (StableHlo.TRef.of (T := ⟨S400000x128, .f32⟩) main_v37).toBuf v = v := rfl
theorem o38 (v : Vec F S400000x128 .f32) : (StableHlo.TRef.of (T := ⟨S400000x128, .f32⟩) main_v38).toBuf v = v := rfl

def wr0 : List (Ref sig .tc) := [main_v0, main_v1, main_v2, main_v3, main_v4, main_v5, main_v6]
theorem keep0 (r : Ref sig .tc) (hr : r ∉ wr0) : StableHlo.after hostOps0 X (Proc.devRef .tc r) = X (Proc.devRef .tc r) :=
  keep_of X (by repeat' constructor) r hr
theorem res0_v1 : StableHlo.after hostOps0 X (Proc.devRef .tc main_v1) = Cert.Glue.srcOf (X (Proc.devRef .tc main_arg36)) := by
  after_results_simp <;> rfl
theorem res0_v3 : StableHlo.after hostOps0 X (Proc.devRef .tc main_v3) = Cert.Glue.dstOf (X (Proc.devRef .tc main_arg36)) := by
  after_results_simp <;> rfl
theorem res0_v4 : StableHlo.after hostOps0 X (Proc.devRef .tc main_v4) = shapeCast S1x130 (X (Proc.devRef .tc main_arg2)) shapeCasts_S130_S1x130 := by
  after_results_simp <;> rfl
theorem res0_v5 : StableHlo.after hostOps0 X (Proc.devRef .tc main_v5) = shapeCast S1x130 (X (Proc.devRef .tc main_arg3)) shapeCasts_S130_S1x130 := by
  after_results_simp <;> rfl
theorem res0_v6 : StableHlo.after hostOps0 X (Proc.devRef .tc main_v6) = shapeCast S1x128 (X (Proc.devRef .tc main_arg5)) shapeCasts_S128_S1x128 := by
  after_results_simp <;> rfl

def wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
theorem keep1 (r : Ref sig .tc) (hr : r ∉ wr1) : StableHlo.after hostOps1 X (Proc.devRef .tc r) = X (Proc.devRef .tc r) :=
  keep_of X (by repeat' constructor) r hr

theorem res1_v8 : StableHlo.after hostOps1 X (Proc.devRef .tc main_v8) = Cert.Glue.takeK (X (Proc.devRef .tc main_v7)) (X (Proc.devRef .tc main_v3)) := by
  after_results_simp
  simp only [ofBuf_toBuf, i1, i3, h7, h36, o8, o9, o37, o38]
  unfold Cert.Glue.takeK
  rfl

def wr1_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]
theorem keep1_1 (r : Ref sig .tc) (hr : r ∉ wr1_1) : StableHlo.after hostOps1_1 X (Proc.devRef .tc r) = X (Proc.devRef .tc r) :=
  keep_of X (by repeat' constructor) r hr

theorem res1_1_v9 : StableHlo.after hostOps1_1 X (Proc.devRef .tc main_v9) = Cert.Glue.takeK (X (Proc.devRef .tc main_v7)) (X (Proc.devRef .tc main_v1)) := by
  after_results_simp
  simp only [ofBuf_toBuf, i1, i3, h7, h36, o8, o9, o37, o38]
  unfold Cert.Glue.takeK
  rfl

def wr1_2 : List (Ref sig .tc) := [main_v10, main_v11, main_v12, main_v13, main_v14]
theorem keep1_2 (r : Ref sig .tc) (hr : r ∉ wr1_2) : StableHlo.after hostOps1_2 X (Proc.devRef .tc r) = X (Proc.devRef .tc r) :=
  keep_of X (by repeat' constructor) r hr
theorem res1_2_v10 : StableHlo.after hostOps1_2 X (Proc.devRef .tc main_v10) = extractStridedSlice S128x128 ![0, 0] (X (Proc.devRef .tc main_arg6)) slices_S283x128_S128x128_0_0 := by
  after_results_simp <;> rfl
theorem res1_2_v11 : StableHlo.after hostOps1_2 X (Proc.devRef .tc main_v11) = extractStridedSlice S128x128 ![128, 0] (X (Proc.devRef .tc main_arg6)) slices_S283x128_S128x128_128_0 := by
  after_results_simp <;> rfl
theorem res1_2_v12 : StableHlo.after hostOps1_2 X (Proc.devRef .tc main_v12) = extractStridedSlice S27x128 ![256, 0] (X (Proc.devRef .tc main_arg6)) slices_S283x128_S27x128_256_0 := by
  after_results_simp <;> rfl
theorem res1_2_v13 : StableHlo.after hostOps1_2 X (Proc.devRef .tc main_v13) = shapeCast S1x128 (X (Proc.devRef .tc main_arg7)) shapeCasts_S128_S1x128 := by
  after_results_simp <;> rfl
theorem res1_2_v14 : StableHlo.after hostOps1_2 X (Proc.devRef .tc main_v14) = shapeCast S1x128 (X (Proc.devRef .tc main_arg9)) shapeCasts_S128_S1x128 := by
  after_results_simp <;> rfl

def wr2 : List (Ref sig .tc) := [main_cst, main_v16, main_v17, main_v18, main_cst_0, main_v19, main_cst_1, main_v20, main_v21, main_v22, main_cst_2, main_v23, main_v24, main_v25, main_v26, main_v27, main_v28, main_v29, main_v30, main_v31, main_v32, main_v33, main_v34, main_v35]
theorem keep2 (r : Ref sig .tc) (hr : r ∉ wr2) : StableHlo.after hostOps2 X (Proc.devRef .tc r) = X (Proc.devRef .tc r) :=
  keep_of X (by repeat' constructor) r hr
theorem res2_v27 : StableHlo.after hostOps2 X (Proc.devRef .tc main_v27) = Cert.Glue.scatterMean128 (X (Proc.devRef .tc main_v15)) (X (Proc.devRef .tc main_v3)) := by
  after_results_simp <;> rfl
theorem res2_v22 : StableHlo.after hostOps2 X (Proc.devRef .tc main_v22) = Cert.Glue.degOf (X (Proc.devRef .tc main_v3)) := by
  after_results_simp <;> rfl
theorem res2_v28 : StableHlo.after hostOps2 X (Proc.devRef .tc main_v28) = extractStridedSlice S128x128 ![0, 0] (X (Proc.devRef .tc main_arg10)) slices_S256x128_S128x128_0_0 := by
  after_results_simp <;> rfl
theorem res2_v29 : StableHlo.after hostOps2 X (Proc.devRef .tc main_v29) = extractStridedSlice S128x128 ![128, 0] (X (Proc.devRef .tc main_arg10)) slices_S256x128_S128x128_128_0 := by
  after_results_simp <;> rfl
theorem res2_v30 : StableHlo.after hostOps2 X (Proc.devRef .tc main_v30) = shapeCast S1x128 (X (Proc.devRef .tc main_arg11)) shapeCasts_S128_S1x128 := by
  after_results_simp <;> rfl
theorem res2_v31 : StableHlo.after hostOps2 X (Proc.devRef .tc main_v31) = shapeCast S1x128 (X (Proc.devRef .tc main_arg13)) shapeCasts_S128_S1x128 := by
  after_results_simp <;> rfl
theorem res2_v32 : StableHlo.after hostOps2 X (Proc.devRef .tc main_v32) = shapeCast S1x128 (X (Proc.devRef .tc main_arg14)) shapeCasts_S128_S1x128 := by
  after_results_simp <;> rfl
theorem res2_v33 : StableHlo.after hostOps2 X (Proc.devRef .tc main_v33) = shapeCast S1x128 (X (Proc.devRef .tc main_arg15)) shapeCasts_S128_S1x128 := by
  after_results_simp <;> rfl
theorem res2_v34 : StableHlo.after hostOps2 X (Proc.devRef .tc main_v34) = shapeCast S1x128 (X (Proc.devRef .tc main_arg16)) shapeCasts_S128_S1x128 := by
  after_results_simp <;> rfl
theorem res2_v35 : StableHlo.after hostOps2 X (Proc.devRef .tc main_v35) = shapeCast S1x128 (X (Proc.devRef .tc main_arg17)) shapeCasts_S128_S1x128 := by
  after_results_simp <;> rfl

def wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem keep3 (r : Ref sig .tc) (hr : r ∉ wr3) : StableHlo.after hostOps3 X (Proc.devRef .tc r) = X (Proc.devRef .tc r) :=
  keep_of X (by repeat' constructor) r hr

theorem res3_v37 : StableHlo.after hostOps3 X (Proc.devRef .tc main_v37) = Cert.Glue.takeK (X (Proc.devRef .tc main_v36)) (X (Proc.devRef .tc main_v3)) := by
  after_results_simp
  simp only [ofBuf_toBuf, i1, i3, h7, h36, o8, o9, o37, o38]
  unfold Cert.Glue.takeK
  rfl

def wr3_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]
theorem keep3_1 (r : Ref sig .tc) (hr : r ∉ wr3_1) : StableHlo.after hostOps3_1 X (Proc.devRef .tc r) = X (Proc.devRef .tc r) :=
  keep_of X (by repeat' constructor) r hr

theorem res3_1_v38 : StableHlo.after hostOps3_1 X (Proc.devRef .tc main_v38) = Cert.Glue.takeK (X (Proc.devRef .tc main_v36)) (X (Proc.devRef .tc main_v1)) := by
  after_results_simp
  simp only [ofBuf_toBuf, i1, i3, h7, h36, o8, o9, o37, o38]
  unfold Cert.Glue.takeK
  rfl

def wr3_2 : List (Ref sig .tc) := [main_v39, main_v40, main_v41, main_v42, main_v43]
theorem keep3_2 (r : Ref sig .tc) (hr : r ∉ wr3_2) : StableHlo.after hostOps3_2 X (Proc.devRef .tc r) = X (Proc.devRef .tc r) :=
  keep_of X (by repeat' constructor) r hr
theorem res3_2_v39 : StableHlo.after hostOps3_2 X (Proc.devRef .tc main_v39) = extractStridedSlice S128x64 ![0, 0] (X (Proc.devRef .tc main_arg18)) slices_S283x64_S128x64_0_0 := by
  after_results_simp <;> rfl
theorem res3_2_v40 : StableHlo.after hostOps3_2 X (Proc.devRef .tc main_v40) = extractStridedSlice S128x64 ![128, 0] (X (Proc.devRef .tc main_arg18)) slices_S283x64_S128x64_128_0 := by
  after_results_simp <;> rfl
theorem res3_2_v41 : StableHlo.after hostOps3_2 X (Proc.devRef .tc main_v41) = extractStridedSlice S27x64 ![256, 0] (X (Proc.devRef .tc main_arg18)) slices_S283x64_S27x64_256_0 := by
  after_results_simp <;> rfl
theorem res3_2_v42 : StableHlo.after hostOps3_2 X (Proc.devRef .tc main_v42) = shapeCast S1x64 (X (Proc.devRef .tc main_arg19)) shapeCasts_S64_S1x64 := by
  after_results_simp <;> rfl
theorem res3_2_v43 : StableHlo.after hostOps3_2 X (Proc.devRef .tc main_v43) = shapeCast S1x64 (X (Proc.devRef .tc main_arg21)) shapeCasts_S64_S1x64 := by
  after_results_simp <;> rfl

def wr4 : List (Ref sig .tc) := [main_cst_3, main_v45, main_v46, main_v47, main_cst_4, main_v48, main_v49, main_v50, main_v51, main_v52, main_v53, main_v54, main_v55, main_v56, main_v57, main_v58, main_v59, main_v60, main_v61]
theorem keep4 (r : Ref sig .tc) (hr : r ∉ wr4) : StableHlo.after hostOps4 X (Proc.devRef .tc r) = X (Proc.devRef .tc r) :=
  keep_of X (by repeat' constructor) r hr
theorem res4_v52 : StableHlo.after hostOps4 X (Proc.devRef .tc main_v52) = Cert.Glue.meanBy64 (X (Proc.devRef .tc main_v44)) (X (Proc.devRef .tc main_v3)) (X (Proc.devRef .tc main_v22)) := by
  after_results_simp <;> rfl
theorem res4_v53 : StableHlo.after hostOps4 X (Proc.devRef .tc main_v53) = extractStridedSlice S128x64 ![0, 0] (X (Proc.devRef .tc main_arg22)) slices_S192x64_S128x64_0_0 := by
  after_results_simp <;> rfl
theorem res4_v54 : StableHlo.after hostOps4 X (Proc.devRef .tc main_v54) = extractStridedSlice S64x64 ![128, 0] (X (Proc.devRef .tc main_arg22)) slices_S192x64_S64x64_128_0 := by
  after_results_simp <;> rfl
theorem res4_v55 : StableHlo.after hostOps4 X (Proc.devRef .tc main_v55) = shapeCast S1x64 (X (Proc.devRef .tc main_arg23)) shapeCasts_S64_S1x64 := by
  after_results_simp <;> rfl
theorem res4_v56 : StableHlo.after hostOps4 X (Proc.devRef .tc main_v56) = shapeCast S1x64 (X (Proc.devRef .tc main_arg25)) shapeCasts_S64_S1x64 := by
  after_results_simp <;> rfl
theorem res4_v57 : StableHlo.after hostOps4 X (Proc.devRef .tc main_v57) = shapeCast S1x64 (X (Proc.devRef .tc main_arg26)) shapeCasts_S64_S1x64 := by
  after_results_simp <;> rfl
theorem res4_v58 : StableHlo.after hostOps4 X (Proc.devRef .tc main_v58) = shapeCast S1x64 (X (Proc.devRef .tc main_arg27)) shapeCasts_S64_S1x64 := by
  after_results_simp <;> rfl
theorem res4_v59 : StableHlo.after hostOps4 X (Proc.devRef .tc main_v59) = shapeCast S1x64 (X (Proc.devRef .tc main_arg28)) shapeCasts_S64_S1x64 := by
  after_results_simp <;> rfl
theorem res4_v60 : StableHlo.after hostOps4 X (Proc.devRef .tc main_v60) = shapeCast S1x64 (X (Proc.devRef .tc main_arg29)) shapeCasts_S64_S1x64 := by
  after_results_simp <;> rfl
theorem res4_v61 : StableHlo.after hostOps4 X (Proc.devRef .tc main_v61) = shapeCast S1x64 (X (Proc.devRef .tc main_arg31)) shapeCasts_S64_S1x64 := by
  after_results_simp <;> rfl

def wr5 : List (Ref sig .tc) := [main_v63, main_v64]
theorem keep5 (r : Ref sig .tc) (hr : r ∉ wr5) : StableHlo.after hostOps5 X (Proc.devRef .tc r) = X (Proc.devRef .tc r) :=
  keep_of X (by repeat' constructor) r hr
theorem res5_v63 : StableHlo.after hostOps5 X (Proc.devRef .tc main_v63) = shapeCast S1x32 (X (Proc.devRef .tc main_arg33)) shapeCasts_S32_S1x32 := by
  after_results_simp <;> rfl
theorem res5_v64 : StableHlo.after hostOps5 X (Proc.devRef .tc main_v64) = shapeCast S1x1 (X (Proc.devRef .tc main_arg35)) shapeCasts_S1_S1x1 := by
  after_results_simp <;> rfl

def wr6 : List (Ref sig .tc) := [main_v66]
theorem keep6 (r : Ref sig .tc) (hr : r ∉ wr6) : StableHlo.after hostOps6 X (Proc.devRef .tc r) = X (Proc.devRef .tc r) :=
  keep_of X (by repeat' constructor) r hr
theorem res6_v66 : StableHlo.after hostOps6 X (Proc.devRef .tc main_v66) = shapeCast S50000 (X (Proc.devRef .tc main_v65)) shapeCasts_S50000x1_S50000 := by
  after_results_simp <;> rfl

end Host

end Cert.KChain

end
-- ==== Proof.KChain.Value.lean ====
import proofs.«418876_j14568529068621_1_alg».proof.Proof.Gen.KernelIdeal.Frame
import Idealize.ShloMosaic.Lib.StableHlo.Run
import proofs.«418876_j14568529068621_1_alg».proof.Proof.Glue.Defs
import proofs.«418876_j14568529068621_1_alg».proof.Proof.KChain.Host

noncomputable section

namespace Cert.KChain

open Cert.KernelIdeal Cert.KernelIdeal.Gen
open Idealize.ShloMosaic Idealize.ShloMosaic.TcCoe

abbrev T0 (F : FTy → Type) : Type :=
  Vec F S50000x130 .f32 → Vec F S1x130 .f32 → Vec F S1x130 .f32 → Vec F S130x128 .f32 → Vec F S1x128 .f32 → Vec F S50000x128 .f32
abbrev T1 (F : FTy → Type) : Type :=
  Vec F S400000x128 .f32 → Vec F S400000x128 .f32 → Vec F S400000x27 .f32 → Vec F S128x128 .f32 → Vec F S128x128 .f32 → Vec F S27x128 .f32 → Vec F S1x128 .f32 → Vec F S128x128 .f32 → Vec F S1x128 .f32 → Vec F S400000x128 .f32
abbrev T2 (F : FTy → Type) : Type :=
  Vec F S50000x128 .f32 → Vec F S50000x128 .f32 → Vec F S128x128 .f32 → Vec F S128x128 .f32 → Vec F S1x128 .f32 → Vec F S128x128 .f32 → Vec F S1x128 .f32 → Vec F S1x128 .f32 → Vec F S1x128 .f32 → Vec F S1x128 .f32 → Vec F S1x128 .f32 → Vec F S50000x128 .f32
abbrev T3 (F : FTy → Type) : Type :=
  Vec F S400000x128 .f32 → Vec F S400000x128 .f32 → Vec F S400000x27 .f32 → Vec F S128x64 .f32 → Vec F S128x64 .f32 → Vec F S27x64 .f32 → Vec F S1x64 .f32 → Vec F S64x64 .f32 → Vec F S1x64 .f32 → Vec F S400000x64 .f32
abbrev T4 (F : FTy → Type) : Type :=
  Vec F S50000x128 .f32 → Vec F S50000x64 .f32 → Vec F S128x64 .f32 → Vec F S64x64 .f32 → Vec F S1x64 .f32 → Vec F S64x64 .f32 → Vec F S1x64 .f32 → Vec F S1x64 .f32 → Vec F S1x64 .f32 → Vec F S1x64 .f32 → Vec F S1x64 .f32 → Vec F S128x64 .f32 → Vec F S1x64 .f32 → Vec F S50000x64 .f32
abbrev T5 (F : FTy → Type) : Type :=
  Vec F S50000x64 .f32 → Vec F S64x32 .f32 → Vec F S1x32 .f32 → Vec F S32x1 .f32 → Vec F S1x1 .f32 → Vec F S50000x1 .f32

variable {F : FTy → Type} [FloatOps F]

section Model
variable (G0 : T0 F) (G1 : T1 F) (G2 : T2 F) (G3 : T3 F) (G4 : T4 F) (G5 : T5 F)
  (a0 : Vec F S50000x130 .f32) (a1 : Vec F S400000x27 .f32) (a2 a3 : Vec F S130 .f32) (a4 : Vec F S130x128 .f32) (a5 : Vec F S128 .f32)
  (a6 : Vec F S283x128 .f32) (a7 : Vec F S128 .f32) (a8 : Vec F S128x128 .f32) (a9 : Vec F S128 .f32) (a10 : Vec F S256x128 .f32) (a11 : Vec F S128 .f32)
  (a12 : Vec F S128x128 .f32) (a13 a14 a15 a16 a17 : Vec F S128 .f32) (a18 : Vec F S283x64 .f32) (a19 : Vec F S64 .f32) (a20 : Vec F S64x64 .f32)
  (a21 : Vec F S64 .f32) (a22 : Vec F S192x64 .f32) (a23 : Vec F S64 .f32) (a24 : Vec F S64x64 .f32) (a25 a26 a27 a28 a29 : Vec F S64 .f32)
  (a30 : Vec F S128x64 .f32) (a31 : Vec F S64 .f32) (a32 : Vec F S64x32 .f32) (a33 : Vec F S32 .f32) (a34 : Vec F S32x1 .f32) (a35 : Vec F S1 .f32)
  (a36 : Vec F S2x400000 .i32)

-- the six stages: each region function applied to the previous stages' outputs after the host gathers and scatter-means
def hN : Vec F S50000x128 .f32 :=
  G0 a0 (shapeCast S1x130 a2 shapeCasts_S130_S1x130) (shapeCast S1x130 a3 shapeCasts_S130_S1x130) a4 (shapeCast S1x128 a5 shapeCasts_S128_S1x128)

def msg1 : Vec F S400000x128 .f32 :=
  G1 (Cert.Glue.takeK (hN G0 a0 a2 a3 a4 a5) (Cert.Glue.dstOf a36)) (Cert.Glue.takeK (hN G0 a0 a2 a3 a4 a5) (Cert.Glue.srcOf a36)) a1
    (extractStridedSlice S128x128 ![0, 0] a6 slices_S283x128_S128x128_0_0) (extractStridedSlice S128x128 ![128, 0] a6 slices_S283x128_S128x128_128_0) (extractStridedSlice S27x128 ![256, 0] a6 slices_S283x128_S27x128_256_0)
    (shapeCast S1x128 a7 shapeCasts_S128_S1x128) a8 (shapeCast S1x128 a9 shapeCasts_S128_S1x128)

def hA : Vec F S50000x128 .f32 :=
  G2 (hN G0 a0 a2 a3 a4 a5) (Cert.Glue.scatterMean128 (msg1 G0 G1 a0 a1 a2 a3 a4 a5 a6 a7 a8 a9 a36) (Cert.Glue.dstOf a36))
    (extractStridedSlice S128x128 ![0, 0] a10 slices_S256x128_S128x128_0_0) (extractStridedSlice S128x128 ![128, 0] a10 slices_S256x128_S128x128_128_0)
    (shapeCast S1x128 a11 shapeCasts_S128_S1x128) a12 (shapeCast S1x128 a13 shapeCasts_S128_S1x128) (shapeCast S1x128 a14 shapeCasts_S128_S1x128) (shapeCast S1x128 a15 shapeCasts_S128_S1x128) (shapeCast S1x128 a16 shapeCasts_S128_S1x128) (shapeCast S1x128 a17 shapeCasts_S128_S1x128)

def msg2 : Vec F S400000x64 .f32 :=
  G3 (Cert.Glue.takeK (hA G0 G1 G2 a0 a1 a2 a3 a4 a5 a6 a7 a8 a9 a10 a11 a12 a13 a14 a15 a16 a17 a36) (Cert.Glue.dstOf a36)) (Cert.Glue.takeK (hA G0 G1 G2 a0 a1 a2 a3 a4 a5 a6 a7 a8 a9 a10 a11 a12 a13 a14 a15 a16 a17 a36) (Cert.Glue.srcOf a36)) a1
    (extractStridedSlice S128x64 ![0, 0] a18 slices_S283x64_S128x64_0_0) (extractStridedSlice S128x64 ![128, 0] a18 slices_S283x64_S128x64_128_0) (extractStridedSlice S27x64 ![256, 0] a18 slices_S283x64_S27x64_256_0)
    (shapeCast S1x64 a19 shapeCasts_S64_S1x64) a20 (shapeCast S1x64 a21 shapeCasts_S64_S1x64)

def hB : Vec F S50000x64 .f32 :=
  G4 (hA G0 G1 G2 a0 a1 a2 a3 a4 a5 a6 a7 a8 a9 a10 a11 a12 a13 a14 a15 a16 a17 a36) (Cert.Glue.scatterMean64 (msg2 G0 G1 G2 G3 a0 a1 a2 a3 a4 a5 a6 a7 a8 a9 a10 a11 a12 a13 a14 a15 a16 a17 a18 a19 a20 a21 a36) (Cert.Glue.dstOf a36))
    (extractStridedSlice S128x64 ![0, 0] a22 slices_S192x64_S128x64_0_0) (extractStridedSlice S64x64 ![128, 0] a22 slices_S192x64_S64x64_128_0)
    (shapeCast S1x64 a23 shapeCasts_S64_S1x64) a24 (shapeCast S1x64 a25 shapeCasts_S64_S1x64) (shapeCast S1x64 a26 shapeCasts_S64_S1x64) (shapeCast S1x64 a27 shapeCasts_S64_S1x64) (shapeCast S1x64 a28 shapeCasts_S64_S1x64) (shapeCast S1x64 a29 shapeCasts_S64_S1x64) a30 (shapeCast S1x64 a31 shapeCasts_S64_S1x64)

def logits : Vec F S50000x1 .f32 :=
  G5 (hB G0 G1 G2 G3 G4 a0 a1 a2 a3 a4 a5 a6 a7 a8 a9 a10 a11 a12 a13 a14 a15 a16 a17 a18 a19 a20 a21 a22 a23 a24 a25 a26 a27 a28 a29 a30 a31 a36) a32 (shapeCast S1x32 a33 shapeCasts_S32_S1x32) a34 (shapeCast S1x1 a35 shapeCasts_S1_S1x1)

def model : Vec F S50000 .f32 :=
  shapeCast S50000 (logits G0 G1 G2 G3 G4 G5 a0 a1 a2 a3 a4 a5 a6 a7 a8 a9 a10 a11 a12 a13 a14 a15 a16 a17 a18 a19 a20 a21 a22 a23 a24 a25 a26 a27 a28 a29 a30 a31 a32 a33 a34 a35 a36) shapeCasts_S50000x1_S50000

end Model

section Reg

abbrev Ent (F : FTy → Type) : Type := (c : Dev nD) → (b : Ref sig .tc) → Buf (Elt F) ((c : Thread nD τ).loc b)

def Reg0 (G0 : T0 F) : Prop :=
  ∀ (V : Ent F) (c : Dev nD), (dat0 (F := F) V c).arrAt 5 cfg0.N = G0 (V c (Pipeline.arrRef spec0 0)) (V c (Pipeline.arrRef spec0 1)) (V c (Pipeline.arrRef spec0 2)) (V c (Pipeline.arrRef spec0 3)) (V c (Pipeline.arrRef spec0 4))

def Reg1 (G1 : T1 F) : Prop :=
  ∀ (V : Ent F) (c : Dev nD), (dat1 (F := F) V c).arrAt 9 cfg1.N = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))

def Reg2 (G2 : T2 F) : Prop :=
  ∀ (V : Ent F) (c : Dev nD), (dat2 (F := F) V c).arrAt 11 cfg2.N = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))

def Reg3 (G3 : T3 F) : Prop :=
  ∀ (V : Ent F) (c : Dev nD), (dat3 (F := F) V c).arrAt 9 cfg3.N = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))

def Reg4 (G4 : T4 F) : Prop :=
  ∀ (V : Ent F) (c : Dev nD), (dat4 (F := F) V c).arrAt 13 cfg4.N = G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12))

def Reg5 (G5 : T5 F) : Prop :=
  ∀ (V : Ent F) (c : Dev nD), (dat5 (F := F) V c).arrAt 5 cfg5.N = G5 (V c (Pipeline.arrRef spec5 0)) (V c (Pipeline.arrRef spec5 1)) (V c (Pipeline.arrRef spec5 2)) (V c (Pipeline.arrRef spec5 3)) (V c (Pipeline.arrRef spec5 4))

end Reg

section Chain
variable (m : (ℓ : Loc nD τ sig) → Buf (Elt F) ℓ) (ρ : Dev nD → PrngReg) (c : Dev nD)

theorem step1 (r : Ref sig .tc) (hr : r ∉ wr0) : W1 m ρ c (Proc.devRef .tc r) = W0 m ρ c (Proc.devRef .tc r) :=
  keep0 (W0 m ρ c) r hr

theorem inOf0 : ∀ w : Fin cfg0.W, Pipeline.arrRef spec0 w ≠ main_v7 → (cfg0.win w).isOut = false := by decide

theorem step2 (r : Ref sig .tc) (hr : r ≠ main_v7) : W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (inOf0 w hr) _).trans (A_eq0 (V1 m ρ) c w))
  · exact W2_of_ne m ρ c r fun w e => h ⟨w, e⟩

theorem step3 (r : Ref sig .tc) (hr : r ∉ wr1) : W3 m ρ c (Proc.devRef .tc r) = W2 m ρ c (Proc.devRef .tc r) :=
  keep1 (W2 m ρ c) r hr

theorem step4 (r : Ref sig .tc) (hr : r ∉ wr1_1) : W4 m ρ c (Proc.devRef .tc r) = W3 m ρ c (Proc.devRef .tc r) :=
  keep1_1 (W3 m ρ c) r hr

theorem step5 (r : Ref sig .tc) (hr : r ∉ wr1_2) : W5 m ρ c (Proc.devRef .tc r) = W4 m ρ c (Proc.devRef .tc r) :=
  keep1_2 (W4 m ρ c) r hr

theorem inOf1 : ∀ w : Fin cfg1.W, Pipeline.arrRef spec1 w ≠ main_v15 → (cfg1.win w).isOut = false := by decide

theorem step6 (r : Ref sig .tc) (hr : r ≠ main_v15) : W6 m ρ c (Proc.devRef .tc r) = W5 m ρ c (Proc.devRef .tc r) := by
  by_cases h : ∃ w, Pipeline.arrRef spec1 w = r
  · obtain ⟨w, rfl⟩ := h
    exact (W6_arr m ρ c w).trans (((dat1 (V5 m ρ) c).arrAt_in w (inOf1 w hr) _).trans (A_eq1 (V5 m ρ) c w))
  · exact W6_of_ne m ρ c r fun w e => h ⟨w, e⟩

theorem step7 (r : Ref sig .tc) (hr : r ∉ wr2) : W7 m ρ c (Proc.devRef .tc r) = W6 m ρ c (Proc.devRef .tc r) :=
  keep2 (W6 m ρ c) r hr

theorem inOf2 : ∀ w : Fin cfg2.W, Pipeline.arrRef spec2 w ≠ main_v36 → (cfg2.win w).isOut = false := by decide

theorem step8 (r : Ref sig .tc) (hr : r ≠ main_v36) : W8 m ρ c (Proc.devRef .tc r) = W7 m ρ c (Proc.devRef .tc r) := by
  by_cases h : ∃ w, Pipeline.arrRef spec2 w = r
  · obtain ⟨w, rfl⟩ := h
    exact (W8_arr m ρ c w).trans (((dat2 (V7 m ρ) c).arrAt_in w (inOf2 w hr) _).trans (A_eq2 (V7 m ρ) c w))
  · exact W8_of_ne m ρ c r fun w e => h ⟨w, e⟩

theorem step9 (r : Ref sig .tc) (hr : r ∉ wr3) : W9 m ρ c (Proc.devRef .tc r) = W8 m ρ c (Proc.devRef .tc r) :=
  keep3 (W8 m ρ c) r hr

theorem step10 (r : Ref sig .tc) (hr : r ∉ wr3_1) : W10 m ρ c (Proc.devRef .tc r) = W9 m ρ c (Proc.devRef .tc r) :=
  keep3_1 (W9 m ρ c) r hr

theorem step11 (r : Ref sig .tc) (hr : r ∉ wr3_2) : W11 m ρ c (Proc.devRef .tc r) = W10 m ρ c (Proc.devRef .tc r) :=
  keep3_2 (W10 m ρ c) r hr

theorem inOf3 : ∀ w : Fin cfg3.W, Pipeline.arrRef spec3 w ≠ main_v44 → (cfg3.win w).isOut = false := by decide

theorem step12 (r : Ref sig .tc) (hr : r ≠ main_v44) : W12 m ρ c (Proc.devRef .tc r) = W11 m ρ c (Proc.devRef .tc r) := by
  by_cases h : ∃ w, Pipeline.arrRef spec3 w = r
  · obtain ⟨w, rfl⟩ := h
    exact (W12_arr m ρ c w).trans (((dat3 (V11 m ρ) c).arrAt_in w (inOf3 w hr) _).trans (A_eq3 (V11 m ρ) c w))
  · exact W12_of_ne m ρ c r fun w e => h ⟨w, e⟩

theorem step13 (r : Ref sig .tc) (hr : r ∉ wr4) : W13 m ρ c (Proc.devRef .tc r) = W12 m ρ c (Proc.devRef .tc r) :=
  keep4 (W12 m ρ c) r hr

theorem inOf4 : ∀ w : Fin cfg4.W, Pipeline.arrRef spec4 w ≠ main_v62 → (cfg4.win w).isOut = false := by decide

theorem step14 (r : Ref sig .tc) (hr : r ≠ main_v62) : W14 m ρ c (Proc.devRef .tc r) = W13 m ρ c (Proc.devRef .tc r) := by
  by_cases h : ∃ w, Pipeline.arrRef spec4 w = r
  · obtain ⟨w, rfl⟩ := h
    exact (W14_arr m ρ c w).trans (((dat4 (V13 m ρ) c).arrAt_in w (inOf4 w hr) _).trans (A_eq4 (V13 m ρ) c w))
  · exact W14_of_ne m ρ c r fun w e => h ⟨w, e⟩

theorem step15 (r : Ref sig .tc) (hr : r ∉ wr5) : W15 m ρ c (Proc.devRef .tc r) = W14 m ρ c (Proc.devRef .tc r) :=
  keep5 (W14 m ρ c) r hr

theorem inOf5 : ∀ w : Fin cfg5.W, Pipeline.arrRef spec5 w ≠ main_v65 → (cfg5.win w).isOut = false := by decide

theorem step16 (r : Ref sig .tc) (hr : r ≠ main_v65) : W16 m ρ c (Proc.devRef .tc r) = W15 m ρ c (Proc.devRef .tc r) := by
  by_cases h : ∃ w, Pipeline.arrRef spec5 w = r
  · obtain ⟨w, rfl⟩ := h
    exact (W16_arr m ρ c w).trans (((dat5 (V15 m ρ) c).arrAt_in w (inOf5 w hr) _).trans (A_eq5 (V15 m ρ) c w))
  · exact W16_of_ne m ρ c r fun w e => h ⟨w, e⟩

theorem step17 (r : Ref sig .tc) (hr : r ∉ wr6) : W17 m ρ c (Proc.devRef .tc r) = W16 m ρ c (Proc.devRef .tc r) :=
  keep6 (W16 m ρ c) r hr

def outs : List (Ref sig .tc) := [main_v7, main_v15, main_v36, main_v44, main_v62, main_v65]

def segs : List (List (Ref sig .tc)) := [wr0, wr1, wr1_1, wr1_2, wr2, wr3, wr3_1, wr3_2, wr4, wr5, wr6, outs]
def wrAll : List (Ref sig .tc) := segs.flatten
-- outside the union of the write lists means outside each of them
theorem notin {r : Ref sig .tc} (h : r ∉ wrAll) {l : List (Ref sig .tc)} (hl : l ∈ segs) : r ∉ l :=
  fun hm => h (List.mem_flatten_of_mem hl hm)
theorem ne_out {r : Ref sig .tc} (h : r ∉ wrAll) (o : Ref sig .tc) (ho : o ∈ outs) : r ≠ o :=
  fun e => notin h (by decide) (e ▸ ho)

abbrev A (r : Ref sig .tc) : Buf (Elt F) ((c : Thread nD τ).loc r) := m ((c : Thread nD τ).loc r)

-- an array no segment writes keeps its launch contents at every boundary
theorem arg0 (r : Ref sig .tc) (h : r ∉ wrAll) : W0 m ρ c (Proc.devRef .tc r) = A m c r := rfl
theorem arg1 (r : Ref sig .tc) (h : r ∉ wrAll) : W1 m ρ c (Proc.devRef .tc r) = A m c r :=
  (step1 m ρ c r (notin h (by decide))).trans (arg0 m ρ c r h)
theorem arg2 (r : Ref sig .tc) (h : r ∉ wrAll) : W2 m ρ c (Proc.devRef .tc r) = A m c r :=
  (step2 m ρ c r (ne_out h main_v7 (by decide))).trans (arg1 m ρ c r h)
theorem arg3 (r : Ref sig .tc) (h : r ∉ wrAll) : W3 m ρ c (Proc.devRef .tc r) = A m c r :=
  (step3 m ρ c r (notin h (by decide))).trans (arg2 m ρ c r h)
theorem arg4 (r : Ref sig .tc) (h : r ∉ wrAll) : W4 m ρ c (Proc.devRef .tc r) = A m c r :=
  (step4 m ρ c r (notin h (by decide))).trans (arg3 m ρ c r h)
theorem arg5 (r : Ref sig .tc) (h : r ∉ wrAll) : W5 m ρ c (Proc.devRef .tc r) = A m c r :=
  (step5 m ρ c r (notin h (by decide))).trans (arg4 m ρ c r h)
theorem arg6 (r : Ref sig .tc) (h : r ∉ wrAll) : W6 m ρ c (Proc.devRef .tc r) = A m c r :=
  (step6 m ρ c r (ne_out h main_v15 (by decide))).trans (arg5 m ρ c r h)
theorem arg7 (r : Ref sig .tc) (h : r ∉ wrAll) : W7 m ρ c (Proc.devRef .tc r) = A m c r :=
  (step7 m ρ c r (notin h (by decide))).trans (arg6 m ρ c r h)
theorem arg8 (r : Ref sig .tc) (h : r ∉ wrAll) : W8 m ρ c (Proc.devRef .tc r) = A m c r :=
  (step8 m ρ c r (ne_out h main_v36 (by decide))).trans (arg7 m ρ c r h)
theorem arg9 (r : Ref sig .tc) (h : r ∉ wrAll) : W9 m ρ c (Proc.devRef .tc r) = A m c r :=
  (step9 m ρ c r (notin h (by decide))).trans (arg8 m ρ c r h)
theorem arg10 (r : Ref sig .tc) (h : r ∉ wrAll) : W10 m ρ c (Proc.devRef .tc r) = A m c r :=
  (step10 m ρ c r (notin h (by decide))).trans (arg9 m ρ c r h)
theorem arg11 (r : Ref sig .tc) (h : r ∉ wrAll) : W11 m ρ c (Proc.devRef .tc r) = A m c r :=
  (step11 m ρ c r (notin h (by decide))).trans (arg10 m ρ c r h)
theorem arg12 (r : Ref sig .tc) (h : r ∉ wrAll) : W12 m ρ c (Proc.devRef .tc r) = A m c r :=
  (step12 m ρ c r (ne_out h main_v44 (by decide))).trans (arg11 m ρ c r h)
theorem arg13 (r : Ref sig .tc) (h : r ∉ wrAll) : W13 m ρ c (Proc.devRef .tc r) = A m c r :=
  (step13 m ρ c r (notin h (by decide))).trans (arg12 m ρ c r h)
theorem arg14 (r : Ref sig .tc) (h : r ∉ wrAll) : W14 m ρ c (Proc.devRef .tc r) = A m c r :=
  (step14 m ρ c r (ne_out h main_v62 (by decide))).trans (arg13 m ρ c r h)
theorem arg15 (r : Ref sig .tc) (h : r ∉ wrAll) : W15 m ρ c (Proc.devRef .tc r) = A m c r :=
  (step15 m ρ c r (notin h (by decide))).trans (arg14 m ρ c r h)
theorem arg16 (r : Ref sig .tc) (h : r ∉ wrAll) : W16 m ρ c (Proc.devRef .tc r) = A m c r :=
  (step16 m ρ c r (ne_out h main_v65 (by decide))).trans (arg15 m ρ c r h)
theorem arg17 (r : Ref sig .tc) (h : r ∉ wrAll) : W17 m ρ c (Proc.devRef .tc r) = A m c r :=
  (step17 m ρ c r (notin h (by decide))).trans (arg16 m ρ c r h)

def dstV : Vec F S400000 .i32 := Cert.Glue.dstOf (A m c main_arg36)

def srcV : Vec F S400000 .i32 := Cert.Glue.srcOf (A m c main_arg36)
theorem v1_1 : W1 m ρ c (Proc.devRef .tc main_v1) = (srcV m c) := res0_v1 (W0 m ρ c)
theorem v3_1 : W1 m ρ c (Proc.devRef .tc main_v3) = (dstV m c) := res0_v3 (W0 m ρ c)
theorem v4_1 : W1 m ρ c (Proc.devRef .tc main_v4) = shapeCast S1x130 (A m c main_arg2) shapeCasts_S130_S1x130 := res0_v4 (W0 m ρ c)
theorem v5_1 : W1 m ρ c (Proc.devRef .tc main_v5) = shapeCast S1x130 (A m c main_arg3) shapeCasts_S130_S1x130 := res0_v5 (W0 m ρ c)
theorem v6_1 : W1 m ρ c (Proc.devRef .tc main_v6) = shapeCast S1x128 (A m c main_arg5) shapeCasts_S128_S1x128 := res0_v6 (W0 m ρ c)
theorem v3_2 : W2 m ρ c (Proc.devRef .tc main_v3) = (dstV m c) := (step2 m ρ c main_v3 (by decide)).trans (v3_1 m ρ c)
theorem v1_2 : W2 m ρ c (Proc.devRef .tc main_v1) = (srcV m c) := (step2 m ρ c main_v1 (by decide)).trans (v1_1 m ρ c)
theorem v1_3 : W3 m ρ c (Proc.devRef .tc main_v1) = (srcV m c) := (step3 m ρ c main_v1 (by decide)).trans (v1_2 m ρ c)
theorem v3_6 : W6 m ρ c (Proc.devRef .tc main_v3) = (dstV m c) := (step6 m ρ c main_v3 (by decide)).trans ((step5 m ρ c main_v3 (by decide)).trans ((step4 m ρ c main_v3 (by decide)).trans ((step3 m ρ c main_v3 (by decide)).trans (v3_2 m ρ c))))
theorem v3_8 : W8 m ρ c (Proc.devRef .tc main_v3) = (dstV m c) := (step8 m ρ c main_v3 (by decide)).trans ((step7 m ρ c main_v3 (by decide)).trans (v3_6 m ρ c))
theorem v1_9 : W9 m ρ c (Proc.devRef .tc main_v1) = (srcV m c) := (step9 m ρ c main_v1 (by decide)).trans ((step8 m ρ c main_v1 (by decide)).trans ((step7 m ρ c main_v1 (by decide)).trans ((step6 m ρ c main_v1 (by decide)).trans ((step5 m ρ c main_v1 (by decide)).trans ((step4 m ρ c main_v1 (by decide)).trans (v1_3 m ρ c))))))
theorem v3_12 : W12 m ρ c (Proc.devRef .tc main_v3) = (dstV m c) := (step12 m ρ c main_v3 (by decide)).trans ((step11 m ρ c main_v3 (by decide)).trans ((step10 m ρ c main_v3 (by decide)).trans ((step9 m ρ c main_v3 (by decide)).trans (v3_8 m ρ c))))
theorem v22_7 : W7 m ρ c (Proc.devRef .tc main_v22) = Cert.Glue.degOf (dstV m c) :=
  (res2_v22 (W6 m ρ c)).trans (by rw [v3_6 m ρ c])
theorem v22_12 : W12 m ρ c (Proc.devRef .tc main_v22) = Cert.Glue.degOf (dstV m c) := (step12 m ρ c main_v22 (by decide)).trans ((step11 m ρ c main_v22 (by decide)).trans ((step10 m ρ c main_v22 (by decide)).trans ((step9 m ρ c main_v22 (by decide)).trans ((step8 m ρ c main_v22 (by decide)).trans (v22_7 m ρ c)))))
theorem v10_5 : W5 m ρ c (Proc.devRef .tc main_v10) = extractStridedSlice S128x128 ![0, 0] (A m c main_arg6) slices_S283x128_S128x128_0_0 :=
  (res1_2_v10 (W4 m ρ c)).trans (by rw [arg4 m ρ c main_arg6 (by decide)])
theorem v11_5 : W5 m ρ c (Proc.devRef .tc main_v11) = extractStridedSlice S128x128 ![128, 0] (A m c main_arg6) slices_S283x128_S128x128_128_0 :=
  (res1_2_v11 (W4 m ρ c)).trans (by rw [arg4 m ρ c main_arg6 (by decide)])
theorem v12_5 : W5 m ρ c (Proc.devRef .tc main_v12) = extractStridedSlice S27x128 ![256, 0] (A m c main_arg6) slices_S283x128_S27x128_256_0 :=
  (res1_2_v12 (W4 m ρ c)).trans (by rw [arg4 m ρ c main_arg6 (by decide)])
theorem v13_5 : W5 m ρ c (Proc.devRef .tc main_v13) = shapeCast S1x128 (A m c main_arg7) shapeCasts_S128_S1x128 :=
  (res1_2_v13 (W4 m ρ c)).trans (by rw [arg4 m ρ c main_arg7 (by decide)])
theorem v14_5 : W5 m ρ c (Proc.devRef .tc main_v14) = shapeCast S1x128 (A m c main_arg9) shapeCasts_S128_S1x128 :=
  (res1_2_v14 (W4 m ρ c)).trans (by rw [arg4 m ρ c main_arg9 (by decide)])
theorem v28_7 : W7 m ρ c (Proc.devRef .tc main_v28) = extractStridedSlice S128x128 ![0, 0] (A m c main_arg10) slices_S256x128_S128x128_0_0 :=
  (res2_v28 (W6 m ρ c)).trans (by rw [arg6 m ρ c main_arg10 (by decide)])
theorem v29_7 : W7 m ρ c (Proc.devRef .tc main_v29) = extractStridedSlice S128x128 ![128, 0] (A m c main_arg10) slices_S256x128_S128x128_128_0 :=
  (res2_v29 (W6 m ρ c)).trans (by rw [arg6 m ρ c main_arg10 (by decide)])
theorem v30_7 : W7 m ρ c (Proc.devRef .tc main_v30) = shapeCast S1x128 (A m c main_arg11) shapeCasts_S128_S1x128 :=
  (res2_v30 (W6 m ρ c)).trans (by rw [arg6 m ρ c main_arg11 (by decide)])
theorem v31_7 : W7 m ρ c (Proc.devRef .tc main_v31) = shapeCast S1x128 (A m c main_arg13) shapeCasts_S128_S1x128 :=
  (res2_v31 (W6 m ρ c)).trans (by rw [arg6 m ρ c main_arg13 (by decide)])
theorem v32_7 : W7 m ρ c (Proc.devRef .tc main_v32) = shapeCast S1x128 (A m c main_arg14) shapeCasts_S128_S1x128 :=
  (res2_v32 (W6 m ρ c)).trans (by rw [arg6 m ρ c main_arg14 (by decide)])
theorem v33_7 : W7 m ρ c (Proc.devRef .tc main_v33) = shapeCast S1x128 (A m c main_arg15) shapeCasts_S128_S1x128 :=
  (res2_v33 (W6 m ρ c)).trans (by rw [arg6 m ρ c main_arg15 (by decide)])
theorem v34_7 : W7 m ρ c (Proc.devRef .tc main_v34) = shapeCast S1x128 (A m c main_arg16) shapeCasts_S128_S1x128 :=
  (res2_v34 (W6 m ρ c)).trans (by rw [arg6 m ρ c main_arg16 (by decide)])
theorem v35_7 : W7 m ρ c (Proc.devRef .tc main_v35) = shapeCast S1x128 (A m c main_arg17) shapeCasts_S128_S1x128 :=
  (res2_v35 (W6 m ρ c)).trans (by rw [arg6 m ρ c main_arg17 (by decide)])
theorem v39_11 : W11 m ρ c (Proc.devRef .tc main_v39) = extractStridedSlice S128x64 ![0, 0] (A m c main_arg18) slices_S283x64_S128x64_0_0 :=
  (res3_2_v39 (W10 m ρ c)).trans (by rw [arg10 m ρ c main_arg18 (by decide)])
theorem v40_11 : W11 m ρ c (Proc.devRef .tc main_v40) = extractStridedSlice S128x64 ![128, 0] (A m c main_arg18) slices_S283x64_S128x64_128_0 :=
  (res3_2_v40 (W10 m ρ c)).trans (by rw [arg10 m ρ c main_arg18 (by decide)])
theorem v41_11 : W11 m ρ c (Proc.devRef .tc main_v41) = extractStridedSlice S27x64 ![256, 0] (A m c main_arg18) slices_S283x64_S27x64_256_0 :=
  (res3_2_v41 (W10 m ρ c)).trans (by rw [arg10 m ρ c main_arg18 (by decide)])
theorem v42_11 : W11 m ρ c (Proc.devRef .tc main_v42) = shapeCast S1x64 (A m c main_arg19) shapeCasts_S64_S1x64 :=
  (res3_2_v42 (W10 m ρ c)).trans (by rw [arg10 m ρ c main_arg19 (by decide)])
theorem v43_11 : W11 m ρ c (Proc.devRef .tc main_v43) = shapeCast S1x64 (A m c main_arg21) shapeCasts_S64_S1x64 :=
  (res3_2_v43 (W10 m ρ c)).trans (by rw [arg10 m ρ c main_arg21 (by decide)])
theorem v53_13 : W13 m ρ c (Proc.devRef .tc main_v53) = extractStridedSlice S128x64 ![0, 0] (A m c main_arg22) slices_S192x64_S128x64_0_0 :=
  (res4_v53 (W12 m ρ c)).trans (by rw [arg12 m ρ c main_arg22 (by decide)])
theorem v54_13 : W13 m ρ c (Proc.devRef .tc main_v54) = extractStridedSlice S64x64 ![128, 0] (A m c main_arg22) slices_S192x64_S64x64_128_0 :=
  (res4_v54 (W12 m ρ c)).trans (by rw [arg12 m ρ c main_arg22 (by decide)])
theorem v55_13 : W13 m ρ c (Proc.devRef .tc main_v55) = shapeCast S1x64 (A m c main_arg23) shapeCasts_S64_S1x64 :=
  (res4_v55 (W12 m ρ c)).trans (by rw [arg12 m ρ c main_arg23 (by decide)])
theorem v56_13 : W13 m ρ c (Proc.devRef .tc main_v56) = shapeCast S1x64 (A m c main_arg25) shapeCasts_S64_S1x64 :=
  (res4_v56 (W12 m ρ c)).trans (by rw [arg12 m ρ c main_arg25 (by decide)])
theorem v57_13 : W13 m ρ c (Proc.devRef .tc main_v57) = shapeCast S1x64 (A m c main_arg26) shapeCasts_S64_S1x64 :=
  (res4_v57 (W12 m ρ c)).trans (by rw [arg12 m ρ c main_arg26 (by decide)])
theorem v58_13 : W13 m ρ c (Proc.devRef .tc main_v58) = shapeCast S1x64 (A m c main_arg27) shapeCasts_S64_S1x64 :=
  (res4_v58 (W12 m ρ c)).trans (by rw [arg12 m ρ c main_arg27 (by decide)])
theorem v59_13 : W13 m ρ c (Proc.devRef .tc main_v59) = shapeCast S1x64 (A m c main_arg28) shapeCasts_S64_S1x64 :=
  (res4_v59 (W12 m ρ c)).trans (by rw [arg12 m ρ c main_arg28 (by decide)])
theorem v60_13 : W13 m ρ c (Proc.devRef .tc main_v60) = shapeCast S1x64 (A m c main_arg29) shapeCasts_S64_S1x64 :=
  (res4_v60 (W12 m ρ c)).trans (by rw [arg12 m ρ c main_arg29 (by decide)])
theorem v61_13 : W13 m ρ c (Proc.devRef .tc main_v61) = shapeCast S1x64 (A m c main_arg31) shapeCasts_S64_S1x64 :=
  (res4_v61 (W12 m ρ c)).trans (by rw [arg12 m ρ c main_arg31 (by decide)])
theorem v63_15 : W15 m ρ c (Proc.devRef .tc main_v63) = shapeCast S1x32 (A m c main_arg33) shapeCasts_S32_S1x32 :=
  (res5_v63 (W14 m ρ c)).trans (by rw [arg14 m ρ c main_arg33 (by decide)])
theorem v64_15 : W15 m ρ c (Proc.devRef .tc main_v64) = shapeCast S1x1 (A m c main_arg35) shapeCasts_S1_S1x1 :=
  (res5_v64 (W14 m ρ c)).trans (by rw [arg14 m ρ c main_arg35 (by decide)])

section V
variable (G0 : T0 F) (G1 : T1 F) (G2 : T2 F) (G3 : T3 F) (G4 : T4 F) (G5 : T5 F)

def hNV : Vec F S50000x128 .f32 := hN G0 (A m c main_arg0) (A m c main_arg2) (A m c main_arg3) (A m c main_arg4) (A m c main_arg5)
def msg1V : Vec F S400000x128 .f32 := msg1 G0 G1 (A m c main_arg0) (A m c main_arg1) (A m c main_arg2) (A m c main_arg3) (A m c main_arg4) (A m c main_arg5) (A m c main_arg6) (A m c main_arg7) (A m c main_arg8) (A m c main_arg9) (A m c main_arg36)
def hAV : Vec F S50000x128 .f32 := hA G0 G1 G2 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg36)
def msg2V : Vec F S400000x64 .f32 := msg2 G0 G1 G2 G3 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg36)
def hBV : Vec F S50000x64 .f32 := hB G0 G1 G2 G3 G4 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg36)
def logitsV : Vec F S50000x1 .f32 := logits G0 G1 G2 G3 G4 G5 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36)
def modelV : Vec F S50000 .f32 := model G0 G1 G2 G3 G4 G5 (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36)

end V

variable {G0 : T0 F} {G1 : T1 F} {G2 : T2 F} {G3 : T3 F} {G4 : T4 F} {G5 : T5 F}
  (hG : Reg0 G0 ∧ Reg1 G1 ∧ Reg2 G2 ∧ Reg3 G3 ∧ Reg4 G4 ∧ Reg5 G5)
include hG

theorem out0 : W2 m ρ c (Proc.devRef .tc main_v7) = G0 (W1 m ρ c (Proc.devRef .tc main_arg0)) (W1 m ρ c (Proc.devRef .tc main_v4)) (W1 m ρ c (Proc.devRef .tc main_v5)) (W1 m ρ c (Proc.devRef .tc main_arg4)) (W1 m ρ c (Proc.devRef .tc main_v6)) := (W2_arr m ρ c 5).trans (hG.1 (V1 m ρ) c)

theorem out1 : W6 m ρ c (Proc.devRef .tc main_v15) = G1 (W5 m ρ c (Proc.devRef .tc main_v8)) (W5 m ρ c (Proc.devRef .tc main_v9)) (W5 m ρ c (Proc.devRef .tc main_arg1)) (W5 m ρ c (Proc.devRef .tc main_v10)) (W5 m ρ c (Proc.devRef .tc main_v11)) (W5 m ρ c (Proc.devRef .tc main_v12)) (W5 m ρ c (Proc.devRef .tc main_v13)) (W5 m ρ c (Proc.devRef .tc main_arg8)) (W5 m ρ c (Proc.devRef .tc main_v14)) := (W6_arr m ρ c 9).trans (hG.2.1 (V5 m ρ) c)

theorem out2 : W8 m ρ c (Proc.devRef .tc main_v36) = G2 (W7 m ρ c (Proc.devRef .tc main_v7)) (W7 m ρ c (Proc.devRef .tc main_v27)) (W7 m ρ c (Proc.devRef .tc main_v28)) (W7 m ρ c (Proc.devRef .tc main_v29)) (W7 m ρ c (Proc.devRef .tc main_v30)) (W7 m ρ c (Proc.devRef .tc main_arg12)) (W7 m ρ c (Proc.devRef .tc main_v31)) (W7 m ρ c (Proc.devRef .tc main_v32)) (W7 m ρ c (Proc.devRef .tc main_v33)) (W7 m ρ c (Proc.devRef .tc main_v34)) (W7 m ρ c (Proc.devRef .tc main_v35)) := (W8_arr m ρ c 11).trans (hG.2.2.1 (V7 m ρ) c)

theorem out3 : W12 m ρ c (Proc.devRef .tc main_v44) = G3 (W11 m ρ c (Proc.devRef .tc main_v37)) (W11 m ρ c (Proc.devRef .tc main_v38)) (W11 m ρ c (Proc.devRef .tc main_arg1)) (W11 m ρ c (Proc.devRef .tc main_v39)) (W11 m ρ c (Proc.devRef .tc main_v40)) (W11 m ρ c (Proc.devRef .tc main_v41)) (W11 m ρ c (Proc.devRef .tc main_v42)) (W11 m ρ c (Proc.devRef .tc main_arg20)) (W11 m ρ c (Proc.devRef .tc main_v43)) := (W12_arr m ρ c 9).trans (hG.2.2.2.1 (V11 m ρ) c)

theorem out4 : W14 m ρ c (Proc.devRef .tc main_v62) = G4 (W13 m ρ c (Proc.devRef .tc main_v36)) (W13 m ρ c (Proc.devRef .tc main_v52)) (W13 m ρ c (Proc.devRef .tc main_v53)) (W13 m ρ c (Proc.devRef .tc main_v54)) (W13 m ρ c (Proc.devRef .tc main_v55)) (W13 m ρ c (Proc.devRef .tc main_arg24)) (W13 m ρ c (Proc.devRef .tc main_v56)) (W13 m ρ c (Proc.devRef .tc main_v57)) (W13 m ρ c (Proc.devRef .tc main_v58)) (W13 m ρ c (Proc.devRef .tc main_v59)) (W13 m ρ c (Proc.devRef .tc main_v60)) (W13 m ρ c (Proc.devRef .tc main_arg30)) (W13 m ρ c (Proc.devRef .tc main_v61)) := (W14_arr m ρ c 13).trans (hG.2.2.2.2.1 (V13 m ρ) c)

theorem out5 : W16 m ρ c (Proc.devRef .tc main_v65) = G5 (W15 m ρ c (Proc.devRef .tc main_v62)) (W15 m ρ c (Proc.devRef .tc main_arg32)) (W15 m ρ c (Proc.devRef .tc main_v63)) (W15 m ρ c (Proc.devRef .tc main_arg34)) (W15 m ρ c (Proc.devRef .tc main_v64)) := (W16_arr m ρ c 5).trans (hG.2.2.2.2.2 (V15 m ρ) c)

theorem v7_2 : W2 m ρ c (Proc.devRef .tc main_v7) = (hNV m c G0) := by
  rw [out0 m ρ c hG, arg1 m ρ c main_arg0 (by decide), v4_1 m ρ c, v5_1 m ρ c, arg1 m ρ c main_arg4 (by decide), v6_1 m ρ c]
  rfl
theorem v8_3 : W3 m ρ c (Proc.devRef .tc main_v8) = Cert.Glue.takeK (hNV m c G0) (dstV m c) :=
  (res1_v8 (W2 m ρ c)).trans (by rw [v7_2 m ρ c hG, v3_2 m ρ c])
theorem v7_3 : W3 m ρ c (Proc.devRef .tc main_v7) = (hNV m c G0) := (step3 m ρ c main_v7 (by decide)).trans (v7_2 m ρ c hG)
theorem v9_4 : W4 m ρ c (Proc.devRef .tc main_v9) = Cert.Glue.takeK (hNV m c G0) (srcV m c) :=
  (res1_1_v9 (W3 m ρ c)).trans (by rw [v7_3 m ρ c hG, v1_3 m ρ c])
theorem v8_5 : W5 m ρ c (Proc.devRef .tc main_v8) = Cert.Glue.takeK (hNV m c G0) (dstV m c) := (step5 m ρ c main_v8 (by decide)).trans ((step4 m ρ c main_v8 (by decide)).trans (v8_3 m ρ c hG))
theorem v9_5 : W5 m ρ c (Proc.devRef .tc main_v9) = Cert.Glue.takeK (hNV m c G0) (srcV m c) := (step5 m ρ c main_v9 (by decide)).trans (v9_4 m ρ c hG)
theorem v15_6 : W6 m ρ c (Proc.devRef .tc main_v15) = (msg1V m c G0 G1) := by
  rw [out1 m ρ c hG, v8_5 m ρ c hG, v9_5 m ρ c hG, arg5 m ρ c main_arg1 (by decide), v10_5 m ρ c, v11_5 m ρ c, v12_5 m ρ c, v13_5 m ρ c, arg5 m ρ c main_arg8 (by decide), v14_5 m ρ c]
  rfl
theorem v27_7 : W7 m ρ c (Proc.devRef .tc main_v27) = Cert.Glue.scatterMean128 (msg1V m c G0 G1) (dstV m c) :=
  (res2_v27 (W6 m ρ c)).trans (by rw [v15_6 m ρ c hG, v3_6 m ρ c])
theorem v7_7 : W7 m ρ c (Proc.devRef .tc main_v7) = (hNV m c G0) := (step7 m ρ c main_v7 (by decide)).trans ((step6 m ρ c main_v7 (by decide)).trans ((step5 m ρ c main_v7 (by decide)).trans ((step4 m ρ c main_v7 (by decide)).trans (v7_3 m ρ c hG))))
theorem v36_8 : W8 m ρ c (Proc.devRef .tc main_v36) = (hAV m c G0 G1 G2) := by
  rw [out2 m ρ c hG, v7_7 m ρ c hG, v27_7 m ρ c hG, v28_7 m ρ c, v29_7 m ρ c, v30_7 m ρ c, arg7 m ρ c main_arg12 (by decide), v31_7 m ρ c, v32_7 m ρ c, v33_7 m ρ c, v34_7 m ρ c, v35_7 m ρ c]
  rfl
theorem v37_9 : W9 m ρ c (Proc.devRef .tc main_v37) = Cert.Glue.takeK (hAV m c G0 G1 G2) (dstV m c) :=
  (res3_v37 (W8 m ρ c)).trans (by rw [v36_8 m ρ c hG, v3_8 m ρ c])
theorem v36_9 : W9 m ρ c (Proc.devRef .tc main_v36) = (hAV m c G0 G1 G2) := (step9 m ρ c main_v36 (by decide)).trans (v36_8 m ρ c hG)
theorem v38_10 : W10 m ρ c (Proc.devRef .tc main_v38) = Cert.Glue.takeK (hAV m c G0 G1 G2) (srcV m c) :=
  (res3_1_v38 (W9 m ρ c)).trans (by rw [v36_9 m ρ c hG, v1_9 m ρ c])
theorem v37_11 : W11 m ρ c (Proc.devRef .tc main_v37) = Cert.Glue.takeK (hAV m c G0 G1 G2) (dstV m c) := (step11 m ρ c main_v37 (by decide)).trans ((step10 m ρ c main_v37 (by decide)).trans (v37_9 m ρ c hG))
theorem v38_11 : W11 m ρ c (Proc.devRef .tc main_v38) = Cert.Glue.takeK (hAV m c G0 G1 G2) (srcV m c) := (step11 m ρ c main_v38 (by decide)).trans (v38_10 m ρ c hG)
theorem v44_12 : W12 m ρ c (Proc.devRef .tc main_v44) = (msg2V m c G0 G1 G2 G3) := by
  rw [out3 m ρ c hG, v37_11 m ρ c hG, v38_11 m ρ c hG, arg11 m ρ c main_arg1 (by decide), v39_11 m ρ c, v40_11 m ρ c, v41_11 m ρ c, v42_11 m ρ c, arg11 m ρ c main_arg20 (by decide), v43_11 m ρ c]
  rfl
theorem v52_13 : W13 m ρ c (Proc.devRef .tc main_v52) = Cert.Glue.scatterMean64 (msg2V m c G0 G1 G2 G3) (dstV m c) :=
  (res4_v52 (W12 m ρ c)).trans (by rw [v44_12 m ρ c hG, v3_12 m ρ c, v22_12 m ρ c]; rfl)
theorem v36_13 : W13 m ρ c (Proc.devRef .tc main_v36) = (hAV m c G0 G1 G2) := (step13 m ρ c main_v36 (by decide)).trans ((step12 m ρ c main_v36 (by decide)).trans ((step11 m ρ c main_v36 (by decide)).trans ((step10 m ρ c main_v36 (by decide)).trans (v36_9 m ρ c hG))))
theorem v62_14 : W14 m ρ c (Proc.devRef .tc main_v62) = (hBV m c G0 G1 G2 G3 G4) := by
  rw [out4 m ρ c hG, v36_13 m ρ c hG, v52_13 m ρ c hG, v53_13 m ρ c, v54_13 m ρ c, v55_13 m ρ c, arg13 m ρ c main_arg24 (by decide), v56_13 m ρ c, v57_13 m ρ c, v58_13 m ρ c, v59_13 m ρ c, v60_13 m ρ c, arg13 m ρ c main_arg30 (by decide), v61_13 m ρ c]
  rfl
theorem v62_15 : W15 m ρ c (Proc.devRef .tc main_v62) = (hBV m c G0 G1 G2 G3 G4) := (step15 m ρ c main_v62 (by decide)).trans (v62_14 m ρ c hG)
theorem v65_16 : W16 m ρ c (Proc.devRef .tc main_v65) = (logitsV m c G0 G1 G2 G3 G4 G5) := by
  rw [out5 m ρ c hG, v62_15 m ρ c hG, arg15 m ρ c main_arg32 (by decide), v63_15 m ρ c, arg15 m ρ c main_arg34 (by decide), v64_15 m ρ c]
  rfl

-- composing the six region functions along the boundaries gives the result as one term in the launch contents
theorem value : W17 m ρ c (Proc.devRef .tc main_v66) = modelV m c G0 G1 G2 G3 G4 G5 :=
  (res6_v66 (W16 m ρ c)).trans (by rw [v65_16 m ρ c hG]; rfl)

end Chain

end Cert.KChain

end
-- ==== Proof.PreDom.Range.lean ====
import proofs.«418876_j14568529068621_1_alg».proof.Defs
import Idealize.ShloMosaic.Lib.ValueIdx
import Idealize.ShloMosaic.Lib.ReduceAll

noncomputable section

namespace Cert.PreDom

open Idealize.ShloMosaic Idealize.SL.Sem
open Cert.Pre_finite_inputs (S_ S1 S32x1 S2x400000)

instance : Subsingleton S_.Idx := ⟨fun a b => funext fun d => d.elim0⟩

theorem toInt_zero32 : (0#32 : BitVec 32).toInt = 0 := by decide
theorem toInt_nodes32 : (50000#32 : BitVec 32).toInt = 50000 := by decide

theorem range_of_last_part [Cert.Pre_finite_inputs.Facts] {F : FTy → Type} [FloatOps F]
    (a35 : FVec F S1 .f32) (e : IVec S2x400000 32) (acc : IVec S_ 1) (p q : FVec F S32x1 .f32)
    (h : Cert.Pre_finite_inputs.fn_part10 (F := F) a35 e acc p q ValueIdx.ix0 = 1#1) :
    ∀ i, 0 ≤ (e i).toInt ∧ (e i).toInt < 50000 := by
  unfold Cert.Pre_finite_inputs.fn_part10 at h
  dsimp only [andi] at h
  rw [IntOp.andi_eq_one, IntOp.andi_eq_one] at h
  obtain ⟨⟨-, hge⟩, hlt⟩ := h
  intro i
  have h0 : IntOp.cmpi .sge (e i) (0#32) = 1#1 := Host.reduce_andi_all _ _ _ _ _ hge i
  have h1 : IntOp.cmpi .slt (e i) (50000#32) = 1#1 := Host.reduce_andi_all _ _ _ _ _ hlt i
  rw [IntOp.cmpi_sge, toInt_zero32] at h0
  rw [IntOp.cmpi_slt, toInt_nodes32] at h1
  exact ⟨h0, h1⟩

theorem inRange_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, 0 ≤ ((m ((c.tc : Thread Cert.KernelIdeal.nD Cert.KernelIdeal.τ).loc Cert.KernelIdeal.main_arg36)) i).toInt
      ∧ ((m ((c.tc : Thread Cert.KernelIdeal.nD Cert.KernelIdeal.τ).loc Cert.KernelIdeal.main_arg36)) i).toInt < 50000 :=
  range_of_last_part _ _ _ _ _ (congrFun (hpre c) ValueIdx.ix0)

end Cert.PreDom

end
-- ==== Proof.Glue.Take.lean ====
import proofs.«418876_j14568529068621_1_alg».proof.Proof.Glue.Defs

noncomputable section

namespace Cert.Glue

open Idealize.ShloMosaic

variable {F : FTy → Type} [FloatOps F]

theorem slt_zero_of_nonneg (w : BitVec 32) (hw : 0 ≤ w.toInt) : IntOp.cmpi .slt w 0#32 = 0#1 := by
  have h0 : (0#32 : BitVec 32).toInt = 0 := by decide
  show BitVec.ofBool (decide (w.toInt < (0#32 : BitVec 32).toInt)) = 0#1
  rw [h0, decide_eq_false (by omega)]
  rfl

theorem sge_zero_of_nonneg (w : BitVec 32) (hw : 0 ≤ w.toInt) : IntOp.cmpi .sge w 0#32 = 1#1 := by
  have h0 : (0#32 : BitVec 32).toInt = 0 := by decide
  show BitVec.ofBool (decide ((0#32 : BitVec 32).toInt ≤ w.toInt)) = 1#1
  rw [h0, decide_eq_true hw]
  rfl

theorem sle_last_of_lt (w : BitVec 32) (hw : w.toInt < 50000) : IntOp.cmpi .sle w 49999#32 = 1#1 := by
  have h0 : (49999#32 : BitVec 32).toInt = 49999 := by decide
  show BitVec.ofBool (decide (w.toInt ≤ (49999#32 : BitVec 32).toInt)) = 1#1
  rw [h0, decide_eq_true (by omega)]
  rfl

theorem wrap_of_nonneg (w : BitVec 32) (hw : 0 ≤ w.toInt) :
    Scalar.select (IntOp.cmpi .slt w 0#32) (IntOp.addi w 50000#32) w = w := by
  rw [slt_zero_of_nonneg w hw]
  rfl

theorem inBounds_of_range (w : BitVec 32) (hw : 0 ≤ w.toInt ∧ w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  rw [wrap_of_nonneg w hw.1, sge_zero_of_nonneg w hw.1, sle_last_of_lt w hw.2]
  rfl

theorem foldl_andi_ones {ι : Type} (f : ι → BitVec 1) (hf : ∀ n, f n = 1#1) :
    ∀ (l : List ι) (r : BitVec 1), r = 1#1 → l.foldl (fun r n => IntOp.andi r (f n)) r = 1#1
  | [], _, hr => hr
  | a :: l, r, hr => by
    rw [List.foldl_cons]
    exact foldl_andi_ones f hf l _ (by rw [hr, hf a]; rfl)

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  exact foldl_andi_ones (fun n => x (s.rowMajor.symm n)) (fun n => hx _) _ _ (hi _)

theorem select_ones {s : Shape} {α : Type} (c : IVec s 1) (a b : s.Idx → α) (hc : ∀ j, c j = 1#1) : select c a b = a := by
  funext j
  exact if_pos (hc j)

section Kernel
open Cert.KernelIdeal Cert.KernelIdeal.Facts₀ Cert.KernelIdeal.Facts
variable [Cert.KernelIdeal.Facts]

theorem srcOf_range (ei : Vec F S2x400000 .i32) (hin : InRange ei) :
    ∀ e, 0 ≤ (srcOf ei e).toInt ∧ (srcOf ei e).toInt < 50000 :=
  fun _ => hin _

theorem dstOf_range (ei : Vec F S2x400000 .i32) (hin : InRange ei) :
    ∀ e, 0 ≤ (dstOf ei e).toInt ∧ (dstOf ei e).toInt < 50000 :=
  fun _ => hin _

end Kernel

section Both
open Cert.KernelIdeal Cert.KernelIdeal.Facts₀ Cert.KernelIdeal.Facts
variable [Cert.KernelIdeal.Facts] [Cert.ReferenceIdeal.Facts]

theorem take_eq (h : Vec F S50000x128 .f32) (idx : Vec F S400000 .i32)
    (hr : ∀ e, 0 ≤ (idx e).toInt ∧ (idx e).toInt < 50000) : takeK h idx = gatherR h idx := by
  unfold takeK
  refine (select_ones _ _ _ fun j => ?_).trans rfl
  exact reduce_andi_ones _ _ _ _ (fun i => inBounds_of_range _ (hr _)) (fun _ => rfl) _

end Both

end Cert.Glue
-- ==== Proof.Mat.lean ====
import Idealize.ShloMosaic.Lib.StackMember
import Idealize.ShloMosaic.Lib.ValueLayout
import Idealize.ShloMosaic.Lib.IdealHost
import Idealize.ShloMosaic.Lib.Pipeline.Value
import Idealize.ShloMosaic.PureOps.Ideal.Laws

noncomputable section

namespace Cert.Mat

open Idealize.ShloMosaic Idealize.ShloMosaic.ValueIdx
open scoped BigOperators

variable {α : Type} {a b : ℕ}

abbrev S1 (a : ℕ) : Shape := ⟨1, ![a]⟩
abbrev S2 (a b : ℕ) : Shape := ⟨2, ![a, b]⟩

/-- Arrays of a rows and b columns of extended reals. -/
abbrev M (a b : ℕ) := (S2 a b).Idx → EReal

/-- A coordinate below n is read as zero only when n = 1, where it is zero. -/
theorem unit_coord (n : ℕ) (p : Fin n) : p.val = if n = 1 then 0 else p.val := by
  split
  · have := p.isLt; omega
  · rfl

theorem cast_col (x : (S1 a).Idx → α) (h : (S1 a).ShapeCasts (S2 a 1)) (i : Fin a) (u : Fin 1) :
    shapeCast (S2 a 1) x h (ix2 i u) = x (ix1 i) :=
  shapeCast_apply x h _ _ (by
    rw [Shape.rowMajor_val_two, Shape.rowMajor_val_one]
    show i.val = i.val * 1 + u.val
    omega)

theorem col_to (v : (S2 a 1).Idx → α) (h : (S2 a 1).Broadcasts (S2 a b)) (p : Fin a) (c : Fin b) :
    broadcastTo (S2 a b) v h (ix2 p c) = v (ix2 p (0 : Fin 1)) :=
  broadcastTo_apply v h (ix2 p c) (ix2 p (0 : Fin 1)) fun
    | ⟨0, _⟩ => unit_coord a p
    | ⟨1, _⟩ => rfl

theorem col_in (v : (S2 a 1).Idx → α) (h : (S2 a 1).BroadcastsInDim (S2 a b) ![0, 1]) (p : Fin a) (c : Fin b) :
    broadcastInDim (S2 a b) ![0, 1] h v (ix2 p c) = v (ix2 p (0 : Fin 1)) :=
  broadcastInDim_apply _ h v (ix2 p c) (ix2 p (0 : Fin 1)) fun
    | ⟨0, _⟩ => unit_coord a p
    | ⟨1, _⟩ => rfl

theorem vec_col (v : (S1 a).Idx → α) (h : (S1 a).BroadcastsInDim (S2 a 1) ![0]) (p : Fin a) (u : Fin 1) :
    broadcastInDim (S2 a 1) ![0] h v (ix2 p u) = v (ix1 p) :=
  broadcastInDim_apply _ h v (ix2 p u) (ix1 p) fun
    | ⟨0, _⟩ => unit_coord a p

theorem vec_rows (v : (S1 b).Idx → α) (h : (S1 b).BroadcastsInDim (S2 1 b) ![1])
    (h' : (S2 1 b).BroadcastsInDim (S2 a b) ![0, 1]) (p : Fin a) (c : Fin b) :
    broadcastInDim (S2 a b) ![0, 1] h' (broadcastInDim (S2 1 b) ![1] h v) (ix2 p c) = v (ix1 c) :=
  (broadcastInDim_oneRow_apply h' _ p c).trans
    (broadcastInDim_apply _ h v (ix2 (0 : Fin 1) c) (ix1 c) fun
      | ⟨0, _⟩ => unit_coord b c)

theorem rowSum (v : FVec Ideal (S2 a b) .f32) (acc : BitVec 32) (h : (S2 a b).Reduces [1] (S1 a))
    (hφ : FKind.Formats .f32) (hacc : acc = FKind.add.neutral .f32 hφ) (p : Fin a) :
    multiReduction .add [1] (S1 a) v acc h hφ hacc (ix1 p) = ∑ k : Fin b, v (ix2 p k) :=
  (Ideal.multiReduction_add_single v acc h hφ hacc (ix1 p)).trans
    (Finset.sum_congr rfl fun k _ => congrArg v (funext fun a => Fin.ext (match a with
      | ⟨0, _⟩ => rfl
      | ⟨1, _⟩ => rfl)))

/-- A fold of a row from a start that is zero is the row's sum. -/
theorem hostRowSum (v : FVec Ideal (S2 a b) .f32) {u : Shape} (init : u.Idx → EReal) (h : (S2 a b).ReducesTo [1] (S1 a))
    (hr : (S2 a b).Reduces [1] (S1 a)) (hu : 0 < u.numel) (h0 : init (Shape.Idx.first hu) = 0) (p : Fin a) :
    Host.reduceAdd v init h hu (ix1 p) = ∑ k : Fin b, v (ix2 p k) :=
  (congrFun (multiReduction_add_eq_hostReduceAdd v 0x00000000#32 hr (.inl rfl) rfl init h hu h0).symm _).trans
    (rowSum v _ hr _ _ p)

theorem mm {k : ℕ} {φ₁ φ₂ : FTy} (prec : Option ContractPrecision) (L : FVec Ideal (S2 a k) φ₁)
    (R : FVec Ideal (S2 k b) φ₂) (p : Fin a) (q : Fin b) :
    matmul (DotDims.plain a k b) prec L R (constant (S2 a b) .f32 0x00000000#32) (ix2 p q)
      = ∑ c : Fin k, L (ix2 p c) * R (ix2 c q) :=
  (congrFun (matmul_zero_eq_dotGeneral _ prec L R) _).trans (StackMember.dotGeneral_plain_apply prec L R p q)

end Cert.Mat
-- ==== Proof.St0.Spec.lean ====
import proofs.«418876_j14568529068621_1_alg».proof.Proof.Mat

noncomputable section

namespace Cert.St0

open Idealize.ShloMosaic Idealize.ShloMosaic.ValueIdx Cert.Mat
open scoped BigOperators

/-- The average of 130 numbers. -/
def avg (f : Fin 130 → EReal) : EReal :=
  Ideal.div (∑ k, f k) (Ideal.ofBits .f32 0x43020000#32)

/-- Column k of a row: its deviation from the row's average over the root of the average squared deviation, scaled and shifted. -/
def rowNormed (xr : Fin 130 → EReal) (g b : M 1 130) (k : Fin 130) : EReal :=
  (xr k - avg xr) * Ideal.rsqrt (avg (fun k => (xr k - avg xr) * (xr k - avg xr)) + Ideal.ofBits .f32 0x3727C5AC#32)
    * g (ix2 0 k) + b (ix2 0 k)

/-- Column q of the output row: the normalised row times column q of W, plus the bias, its positive part. -/
def rowOut (xr : Fin 130 → EReal) (g b : M 1 130) (W : M 130 128) (pb : M 1 128) (q : Fin 128) : EReal :=
  max ((∑ k, rowNormed xr g b k * W (ix2 k q)) + pb (ix2 0 q)) (Ideal.ofBits .f32 0x00000000#32)

/-- The stage on n rows: every output row depends on its own input row alone. -/
def kernRows (n : ℕ) (x : M n 130) (g b : M 1 130) (W : M 130 128) (pb : M 1 128) : M n 128 :=
  fun j => rowOut (fun k => x (ix2 (j 0) k)) g b W pb (j 1)

def kern (x : M 50000 130) (g b : M 1 130) (W : M 130 128) (pb : M 1 128) : M 50000 128 :=
  kernRows 50000 x g b W pb

end Cert.St0
-- ==== Proof.St0.Bridge.lean ====
import proofs.«418876_j14568529068621_1_alg».proof.Proof.St0.Spec
import proofs.«418876_j14568529068621_1_alg».proof.Proof.St0.Ref
import proofs.«418876_j14568529068621_1_alg».proof.Proof.Gen.ReferenceIdeal
import proofs.«418876_j14568529068621_1_alg».proof.Proof.Mat

noncomputable section

namespace Cert.St0

open Idealize.ShloMosaic Idealize.ShloMosaic.ValueIdx
open Cert.ReferenceIdeal Cert.ReferenceIdeal.Facts₀ Cert.ReferenceIdeal.Facts Cert.Mat
open scoped BigOperators

variable (x : FVec Ideal S50000x130 .f32) (g b : FVec Ideal S130 .f32) (r : Fin 50000)

theorem ofBits_130 : Ideal.ofBits .f32 0x43020000#32 = ((130 : ℝ) : EReal) := by
  simp [Ideal.ofBits, Ideal.ieee, -EReal.coe_mul]; norm_num

theorem ddof_sub : (Ideal.ofBits .f32 0x43020000#32 : EReal) - (((0#32 : BitVec 32).toInt : ℝ) : EReal)
    = Ideal.ofBits .f32 0x43020000#32 := by
  simp

/-- The guard of the variance holds: 130 - 0 > 0. -/
theorem guard_true : Ideal.cmp .ogt ((Ideal.ofBits .f32 0x43020000#32 : EReal) - (((0#32 : BitVec 32).toInt : ℝ) : EReal))
    (Ideal.ofBits .f32 0x00000000#32) = 1#1 := by
  rw [ddof_sub, ofBits_130, Ideal.ofBits_zero_f32]
  simp [Ideal.cmp]

/-- The reference's divisor of the variance. -/
abbrev ddof : FVec Ideal S_ .f32 := subf (constant S_ .f32 0x43020000#32) (sitofp .f32 (constantI S_ 32 0#32))

/-- The reference's row sums over a divisor, as one column. -/
def refAvg (x : FVec Ideal S50000x130 .f32) (d : FVec Ideal S_ .f32) : FVec Ideal S50000x1 .f32 :=
  Host.divf (broadcastInDim S50000x1 ![0] bcast_S50000_S50000x1_0 (Host.reduceAdd x (constant (F := Ideal) S_ .f32 0x00000000#32) reducesTo_S50000x130_S50000_d1 h_S_))
    (broadcastInDim S50000x1 ![] bcast_S_S50000x1 d)

theorem refAvg_apply (d : FVec Ideal S_ .f32) (hd : d ix0 = Ideal.ofBits .f32 0x43020000#32) (u : Fin 1) :
    refAvg x d (ix2 r u) = avg fun k => x (ix2 r k) :=
  congrArg₂ Ideal.div ((vec_col _ _ r u).trans (hostRowSum x _ _ (by decide) _ Ideal.ofBits_zero_f32 r))
    ((broadcastInDim_scalar_apply _ _ _).trans hd)

def refDev : FVec Ideal S50000x130 .f32 :=
  subf x (broadcastInDim S50000x130 ![0, 1] bcast_S50000x1_S50000x130_0_1 (refAvg x (constant S_ .f32 0x43020000#32)))

theorem refDev_apply (k : Fin 130) : refDev x (ix2 r k) = x (ix2 r k) - avg fun k => x (ix2 r k) :=
  congrArg (x (ix2 r k) - ·) ((col_in _ _ r k).trans (refAvg_apply x r _ rfl 0))

def refVar : FVec Ideal S50000x1 .f32 :=
  select (broadcastInDim S50000x1 ![] bcast_S_S50000x1 (cmpf .ogt ddof (constant (F := Ideal) S_ .f32 0x00000000#32)))
    (refAvg (mulf (refDev x) (refDev x)) ddof)
    (broadcastInDim S50000x1 ![] bcast_S_S50000x1 (id (constant (F := Ideal) S_ .f32 0x7FC00000#32)))

theorem refVar_apply (u : Fin 1) :
    refVar x (ix2 r u) = avg fun k => (x (ix2 r k) - avg fun k => x (ix2 r k)) * (x (ix2 r k) - avg fun k => x (ix2 r k)) := by
  refine (select_apply _ _ _ _).trans ?_
  rw [show broadcastInDim S50000x1 ![] bcast_S_S50000x1 (cmpf .ogt ddof (constant (F := Ideal) S_ .f32 0x00000000#32)) (ix2 r u) = 1#1 from
    (broadcastInDim_scalar_apply _ _ _).trans guard_true, select_one]
  exact (refAvg_apply _ r _ ddof_sub u).trans
    (congrArg avg (funext fun k => congrArg₂ (· * ·) (refDev_apply x r k) (refDev_apply x r k)))

def refNormed : FVec Ideal S50000x130 .f32 :=
  addf
    (mulf
      (mulf (refDev x) (broadcastInDim S50000x130 ![0, 1] bcast_S50000x1_S50000x130_0_1 (Host.rsqrt (addf (refVar x) (broadcastInDim S50000x1 ![] bcast_S_S50000x1 (constant (F := Ideal) S_ .f32 0x3727C5AC#32))))))
      (broadcastInDim S50000x130 ![0, 1] bcast_S1x130_S50000x130_0_1 (broadcastInDim S1x130 ![1] bcast_S130_S1x130_1 g)))
    (broadcastInDim S50000x130 ![0, 1] bcast_S1x130_S50000x130_0_1 (broadcastInDim S1x130 ![1] bcast_S130_S1x130_1 b))

theorem refNormed_apply (hg : S130.ShapeCasts S1x130) (k : Fin 130) :
    refNormed x g b (ix2 r k) = rowNormed (fun k => x (ix2 r k)) (shapeCast S1x130 g hg) (shapeCast S1x130 b hg) k := by
  refine congrArg₂ (· + ·) (congrArg₂ (· * ·) (congrArg₂ (· * ·) (refDev_apply x r k) ((col_in _ _ r k).trans ?_)) ?_) ?_
  · exact congrArg₂ (fun s e => Ideal.rsqrt (s + e)) (refVar_apply x r 0) (broadcastInDim_scalar_apply _ _ _)
  · exact (vec_rows g _ _ r k).trans (shapeCast_a_1a_apply g hg 0 k).symm
  · exact (vec_rows b _ _ r k).trans (shapeCast_a_1a_apply b hg 0 k).symm

/-- Read at an index, the reference and the stage are the same arithmetic on row r of the input. -/
theorem bridge (W : FVec Ideal S130x128 .f32) (pb : FVec Ideal S128 .f32) (hg : S130.ShapeCasts S1x130) (hp : S128.ShapeCasts S1x128) :
    kern x (shapeCast S1x130 g hg) (shapeCast S1x130 b hg) W (shapeCast S1x128 pb hp) = ref (F := Ideal) x g b W pb := by
  funext j
  obtain ⟨r, q, rfl⟩ : ∃ (r : Fin 50000) (q : Fin 128), j = ix2 r q := ⟨j 0, j 1, eq_ix2 j⟩
  symm
  refine congrArg₂ max (congrArg₂ (· + ·) ((StackMember.dotGeneral_plain_apply none _ _ r q).trans
    (Finset.sum_congr rfl fun k _ => congrArg (· * W (ix2 k q)) (refNormed_apply x g b r hg k))) ?_) (broadcastInDim_scalar_apply _ _ _)
  exact (vec_rows pb _ _ r q).trans (shapeCast_a_1a_apply pb hp 0 q).symm

end Cert.St0
-- ==== Proof.St1.Spec.lean ====
import Idealize.ShloMosaic.Lib.ValueIdx

noncomputable section

open scoped BigOperators

namespace Cert.St1

open Idealize.ShloMosaic Idealize.ShloMosaic.ValueIdx

abbrev Mat (n k : Nat) : Type := (⟨2, ![n, k]⟩ : Shape).Idx → EReal

/-- One entry of the two-layer network from one row of each edge-indexed input: the first layer is three partial products added in order, shifted and clamped at zero. -/
def cell (rd rs : Fin 128 → EReal) (re : Fin 27 → EReal) (w1d w1s : Mat 128 128) (w1e : Mat 27 128)
    (b1 : Mat 1 128) (w2 : Mat 128 128) (b2 : Mat 1 128) (q : Fin 128) : EReal :=
  (∑ k : Fin 128,
      max ((((∑ j : Fin 128, rd j * w1d (ix2 j k)) + ∑ j : Fin 128, rs j * w1s (ix2 j k))
              + ∑ j : Fin 27, re j * w1e (ix2 j k)) + b1 (ix2 (0 : Fin 1) k))
          (Ideal.ofBits .f32 0x00000000#32)
        * w2 (ix2 k q))
    + b2 (ix2 (0 : Fin 1) q)

def kern (xd xs : Mat 400000 128) (ea : Mat 400000 27) (w1d w1s : Mat 128 128) (w1e : Mat 27 128)
    (b1 : Mat 1 128) (w2 : Mat 128 128) (b2 : Mat 1 128) : Mat 400000 128 :=
  fun i => cell (fun j => xd (ix2 (i 0 : Fin 400000) j)) (fun j => xs (ix2 (i 0 : Fin 400000) j))
    (fun j => ea (ix2 (i 0 : Fin 400000) j)) w1d w1s w1e b1 w2 b2 (i 1 : Fin 128)

theorem kern_ix2 (xd xs : Mat 400000 128) (ea : Mat 400000 27) (w1d w1s : Mat 128 128) (w1e : Mat 27 128)
    (b1 : Mat 1 128) (w2 : Mat 128 128) (b2 : Mat 1 128) (r : Fin 400000) (q : Fin 128) :
    kern xd xs ea w1d w1s w1e b1 w2 b2 (ix2 r q)
      = cell (fun j => xd (ix2 r j)) (fun j => xs (ix2 r j)) (fun j => ea (ix2 r j)) w1d w1s w1e b1 w2 b2 q := rfl

end Cert.St1

end
-- ==== Proof.St1.Dot.lean ====
import Idealize.ShloMosaic.Lib.StackMember

noncomputable section

open scoped BigOperators

namespace Cert.St1

open Idealize.ShloMosaic Idealize.ShloMosaic.ValueIdx

variable {m k n : Nat} (d : DotDims ⟨2, ![m, k]⟩ ⟨2, ![k, n]⟩ ⟨2, ![m, n]⟩) (hd : d = DotDims.plain m k n)

include hd in
/-- A product that contracts the columns of an m × k array with the rows of a k × n array, with no batch axis, is at (p, c) the sum over the k inner positions. -/
theorem dotGeneral_ix2 {φ₁ φ₂ : FTy} (prec : Option ContractPrecision) (sched : HostSchedule) (lhs : FVec Ideal ⟨2, ![m, k]⟩ φ₁)
    (rhs : FVec Ideal ⟨2, ![k, n]⟩ φ₂) (p : Fin m) (c : Fin n) :
    FloatOps.dotGeneral d prec sched lhs rhs (ix2 p c) = ∑ j : Fin k, lhs (ix2 p j) * rhs (ix2 j c) := by
  subst hd
  rw [Ideal.dotGeneral_apply]
  exact (Ideal.dotGeneral_apply _ prec _ lhs rhs _).symm.trans (StackMember.dotGeneral_plain_apply prec lhs rhs p c)

include hd in
/-- The same product added to the zero array is the same sum. -/
theorem matmul_zero_ix2 {φ₁ φ₂ : FTy} (prec : Option ContractPrecision) (lhs : FVec Ideal ⟨2, ![m, k]⟩ φ₁)
    (rhs : FVec Ideal ⟨2, ![k, n]⟩ φ₂) (p : Fin m) (c : Fin n) :
    FloatOps.matmul d prec lhs rhs (constant (F := Ideal) ⟨2, ![m, n]⟩ .f32 0x00000000#32) (ix2 p c)
      = ∑ j : Fin k, lhs (ix2 p j) * rhs (ix2 j c) :=
  (Ideal.matmul_constant_zero_apply d prec lhs rhs _).trans
    ((Ideal.dotGeneral_apply d prec .single lhs rhs _).symm.trans (dotGeneral_ix2 d hd prec .single lhs rhs p c))

end Cert.St1

end
-- ==== Proof.St1.Bridge.lean ====
import proofs.«418876_j14568529068621_1_alg».proof.KernelIdeal
import proofs.«418876_j14568529068621_1_alg».proof.Proof.St1.Ref
import proofs.«418876_j14568529068621_1_alg».proof.Proof.St1.Spec
import proofs.«418876_j14568529068621_1_alg».proof.Proof.St1.Dot
import proofs.«418876_j14568529068621_1_alg».proof.Proof.Mat
import Idealize.ShloMosaic.Lib.Pipeline.Value
import Idealize.ShloMosaic.Lib.ValueLayout
import Idealize.ShloMosaic.Lib.IdealHost

noncomputable section

open scoped BigOperators

namespace Cert.St1

open Idealize.ShloMosaic Idealize.ShloMosaic.ValueIdx

/-- A sum over 283 columns is the sum over the first 128, then the next 128, then the last 27: addition is only regrouped. -/
theorem sum_three (f : Fin 283 → EReal) :
    ∑ j : Fin 283, f j
      = ((∑ j : Fin 128, f ⟨j.val, by have := j.isLt; omega⟩) + ∑ j : Fin 128, f ⟨128 + j.val, by have := j.isLt; omega⟩)
        + ∑ j : Fin 27, f ⟨256 + j.val, by have := j.isLt; omega⟩ := by
  have h1 := Fin.sum_univ_add (M := EReal) (a := 256) (b := 27) f
  have h2 := Fin.sum_univ_add (M := EReal) (a := 128) (b := 128) (fun i : Fin 256 => f (Fin.castAdd 27 i))
  rw [h1, h2]
  rfl

section Cat

variable (xd xs : Mat 400000 128) (ea : Mat 400000 27)
  (hc : Shape.Concatenates [(⟨2, ![400000, 128]⟩ : Shape), ⟨2, ![400000, 128]⟩, ⟨2, ![400000, 27]⟩] ⟨2, ![400000, 283]⟩ 1)

abbrev cat : Mat 400000 283 := concatenate (⟨2, ![400000, 283]⟩ : Shape) 1 [⟨⟨2, ![400000, 128]⟩, xd⟩, ⟨⟨2, ![400000, 128]⟩, xs⟩, ⟨⟨2, ![400000, 27]⟩, ea⟩] hc

/-- Columns 0–127, 128–255 and 256–282 of the concatenation are the three pieces in order. -/
theorem cat_d (r : Fin 400000) (j : Fin 128) (j' : Fin 283) (hj : j'.val = j.val) :
    cat xd xs ea hc (ix2 r j') = xd (ix2 r j) :=
  concatenate_apply_piece 1 _ _ (ix2 r j') 0 (by show (0 : Nat) < 3; omega) _ xd rfl rfl 0 rfl (ix2 r j)
    (fun b hb => by match b with | ⟨0, _⟩ => rfl | ⟨1, _⟩ => exact absurd rfl hb)
    (by show 0 + j.val = j'.val; omega)

theorem cat_s (r : Fin 400000) (j : Fin 128) (j' : Fin 283) (hj : j'.val = 128 + j.val) :
    cat xd xs ea hc (ix2 r j') = xs (ix2 r j) :=
  concatenate_apply_piece 1 _ _ (ix2 r j') 1 (by show (1 : Nat) < 3; omega) _ xs rfl rfl 128 rfl (ix2 r j)
    (fun b hb => by match b with | ⟨0, _⟩ => rfl | ⟨1, _⟩ => exact absurd rfl hb)
    (by show 128 + j.val = j'.val; omega)

theorem cat_e (r : Fin 400000) (j : Fin 27) (j' : Fin 283) (hj : j'.val = 256 + j.val) :
    cat xd xs ea hc (ix2 r j') = ea (ix2 r j) :=
  concatenate_apply_piece 1 _ _ (ix2 r j') 2 (by show (2 : Nat) < 3; omega) _ ea rfl rfl 256 rfl (ix2 r j)
    (fun b hb => by match b with | ⟨0, _⟩ => rfl | ⟨1, _⟩ => exact absurd rfl hb)
    (by show 256 + j.val = j'.val; omega)

variable {n : Nat} (mW1 : Mat 283 n)
  (h0 : (⟨2, ![283, n]⟩ : Shape).Slices ![0, 0] ⟨2, ![128, n]⟩)
  (h128 : (⟨2, ![283, n]⟩ : Shape).Slices ![128, 0] ⟨2, ![128, n]⟩)
  (h256 : (⟨2, ![283, n]⟩ : Shape).Slices ![256, 0] ⟨2, ![27, n]⟩)

/-- The product of the concatenation with the whole weight is the sum of the products of the pieces with the weight's three row bands. -/
theorem first_layer (r : Fin 400000) (k : Fin n) :
    ∑ j : Fin 283, cat xd xs ea hc (ix2 r j) * mW1 (ix2 j k)
      = ((∑ j : Fin 128, xd (ix2 r j) * extractStridedSlice ⟨2, ![128, n]⟩ ![0, 0] mW1 h0 (ix2 j k))
          + ∑ j : Fin 128, xs (ix2 r j) * extractStridedSlice ⟨2, ![128, n]⟩ ![128, 0] mW1 h128 (ix2 j k))
        + ∑ j : Fin 27, ea (ix2 r j) * extractStridedSlice ⟨2, ![27, n]⟩ ![256, 0] mW1 h256 (ix2 j k) := by
  rw [sum_three]
  refine congrArg₂ (· + ·) (congrArg₂ (· + ·) ?_ ?_) ?_
  · refine Finset.sum_congr rfl fun j _ => ?_
    rw [cat_d xd xs ea hc r j _ rfl, slice2_axis0_apply 0 mW1 h0 j k ⟨j.val, by have := j.isLt; omega⟩ (Nat.zero_add _).symm]
  · refine Finset.sum_congr rfl fun j _ => ?_
    rw [cat_s xd xs ea hc r j _ rfl, slice2_axis0_apply 128 mW1 h128 j k ⟨128 + j.val, by have := j.isLt; omega⟩ rfl]
  · refine Finset.sum_congr rfl fun j _ => ?_
    rw [cat_e xd xs ea hc r j _ rfl, slice2_axis0_apply 256 mW1 h256 j k ⟨256 + j.val, by have := j.isLt; omega⟩ rfl]

end Cat

theorem zero_host {T : Shape} (h : (⟨0, ![]⟩ : Shape).BroadcastsInDim T ![]) (j : T.Idx) :
    broadcastInDim T ![] h (constant (F := Ideal) ⟨0, ![]⟩ .f32 0x00000000#32) j = Ideal.ofBits .f32 0x00000000#32 :=
  broadcastInDim_scalar_apply h _ _

/-- Everything after the first product is the same operation on both sides, and the first product splits over the three pieces. -/
theorem bridge [Cert.KernelIdeal.Facts] [Cert.ReferenceIdeal.Facts]
    (xd xs : Mat 400000 128) (ea : Mat 400000 27)
    (mW1 : Mat 283 128) (mb1 : (⟨1, ![128]⟩ : Shape).Idx → EReal)
    (mW2 : Mat 128 128) (mb2 : (⟨1, ![128]⟩ : Shape).Idx → EReal) :
    kern xd xs ea
        (extractStridedSlice Cert.KernelIdeal.S128x128 ![0, 0] mW1 Cert.KernelIdeal.Facts₀.slices_S283x128_S128x128_0_0)
        (extractStridedSlice Cert.KernelIdeal.S128x128 ![128, 0] mW1 Cert.KernelIdeal.Facts₀.slices_S283x128_S128x128_128_0)
        (extractStridedSlice Cert.KernelIdeal.S27x128 ![256, 0] mW1 Cert.KernelIdeal.Facts₀.slices_S283x128_S27x128_256_0)
        (shapeCast Cert.KernelIdeal.S1x128 mb1 Cert.KernelIdeal.Facts₀.shapeCasts_S128_S1x128) mW2
        (shapeCast Cert.KernelIdeal.S1x128 mb2 Cert.KernelIdeal.Facts₀.shapeCasts_S128_S1x128)
      = ref (F := Ideal) xd xs ea mW1 mb1 mW2 mb2 := by
  funext i
  obtain ⟨r, q, rfl⟩ : ∃ (r : Fin 400000) (q : Fin 128), i = ix2 r q := ⟨i 0, i 1, eq_ix2 i⟩
  rw [kern_ix2]
  unfold cell ref
  simp only [Host.dotGeneral]
  rw [addf_apply, dotGeneral_ix2 Cert.ReferenceIdeal.dot_S400000x128_S128x128_S400000x128_1_0_0_1_n_n rfl, Mat.vec_rows, shapeCast_a_1a_apply mb2]
  refine congrArg (· + mb2 (ix1 q)) (Finset.sum_congr rfl fun k _ => ?_)
  rw [maximumf_apply, zero_host, addf_apply, dotGeneral_ix2 Cert.ReferenceIdeal.dot_S400000x283_S283x128_S400000x128_1_0_0_1_n_n rfl, Mat.vec_rows,
    shapeCast_a_1a_apply mb1, first_layer xd xs ea _ mW1 Cert.KernelIdeal.Facts₀.slices_S283x128_S128x128_0_0 Cert.KernelIdeal.Facts₀.slices_S283x128_S128x128_128_0
      Cert.KernelIdeal.Facts₀.slices_S283x128_S27x128_256_0 r k]

end Cert.St1

end
-- ==== Proof.St2.Spec.lean ====
import Idealize.ShloMosaic.PureOps.Ideal
import Idealize.ShloMosaic.Lib.ValueIdx

noncomputable section

namespace Cert.St2

open Idealize.ShloMosaic Idealize.ShloMosaic.ValueIdx
open scoped BigOperators

abbrev Arr (a b : Nat) : Type := (⟨2, ![a, b]⟩ : Shape).Idx → EReal

abbrev zeroW : EReal := Ideal.ofBits .f32 0x00000000#32

abbrev epsW : EReal := Ideal.ofBits .f32 0x3727C5AC#32

def hidden (hr ar : Fin 128 → EReal) (w1x w1a : Arr 128 128) (b1 : Arr 1 128) (k : Fin 128) : EReal :=
  max ((∑ j : Fin 128, hr j * w1x (ix2 j k)) + (∑ j : Fin 128, ar j * w1a (ix2 j k)) + b1 (ix2 0 k)) zeroW

def rowOut (hr ar : Fin 128 → EReal) (w1x w1a : Arr 128 128) (b1 : Arr 1 128) (w2 : Arr 128 128)
    (b2 g bt m v : Arr 1 128) (q : Fin 128) : EReal :=
  hr q + max
    ((((∑ k : Fin 128, hidden hr ar w1x w1a b1 k * w2 (ix2 k q)) + b2 (ix2 0 q) - m (ix2 0 q))
        * Ideal.rsqrt (v (ix2 0 q) + epsW)) * g (ix2 0 q) + bt (ix2 0 q))
    zeroW

def kern (h agg : Arr 50000 128) (w1x w1a : Arr 128 128) (b1 : Arr 1 128) (w2 : Arr 128 128)
    (b2 g bt m v : Arr 1 128) : Arr 50000 128 :=
  fun i => rowOut (fun j => h (ix2 (i 0) j)) (fun j => agg (ix2 (i 0) j)) w1x w1a b1 w2 b2 g bt m v (i 1)

theorem kern_apply (h agg : Arr 50000 128) (w1x w1a : Arr 128 128) (b1 : Arr 1 128) (w2 : Arr 128 128)
    (b2 g bt m v : Arr 1 128) (r : Fin 50000) (q : Fin 128) :
    kern h agg w1x w1a b1 w2 b2 g bt m v (ix2 r q)
      = rowOut (fun j => h (ix2 r j)) (fun j => agg (ix2 r j)) w1x w1a b1 w2 b2 g bt m v q := rfl

end Cert.St2

end
-- ==== Proof.Upd.lean ====
import Idealize.ShloMosaic.Lib.StackMember
import Idealize.ShloMosaic.Lib.KernelVsHost

noncomputable section

namespace Cert.Upd

open Idealize.ShloMosaic Idealize.ShloMosaic.ValueIdx
open scoped BigOperators

theorem hz : (![0, 0] : Fin 2 → Nat) = fun _ => 0 := funext fun a => by fin_cases a <;> rfl

/-- A product of an `M × K` by a `K × N` matrix is, entry by entry, the sum over the contracted coordinate. -/
theorem dot_at {M K N : Nat} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    Host.dotGeneral D none A B (ix2 a b) = ∑ c : Fin K, A (ix2 a c) * B (ix2 c b) := by
  subst hD
  exact StackMember.dotGeneral_plain_apply none A B a b

/-- Accumulated into zero, the block product is the same sum. -/
theorem mm_at {M K N : Nat} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    matmul D none A B (constant ⟨2, ![M, N]⟩ .f32 0x00000000#32) (ix2 a b) = ∑ c : Fin K, A (ix2 a c) * B (ix2 c b) := by
  rw [matmul_zero_eq_dotGeneral]
  exact dot_at D hD A B a b

end Cert.Upd

end
-- ==== Proof.St2.Bridge.lean ====
import proofs.«418876_j14568529068621_1_alg».proof.KernelIdeal
import proofs.«418876_j14568529068621_1_alg».proof.Proof.St2.Ref
import proofs.«418876_j14568529068621_1_alg».proof.Proof.St2.Spec
import proofs.«418876_j14568529068621_1_alg».proof.Proof.Upd
import proofs.«418876_j14568529068621_1_alg».proof.Proof.Mat
import Idealize.ShloMosaic.Lib.StackMember
import Idealize.ShloMosaic.Lib.ValueLayout
import Idealize.ShloMosaic.Lib.Pipeline.Value

noncomputable section

namespace Cert.St2

open Idealize.ShloMosaic Idealize.SL.Sem Idealize.ShloMosaic.ValueIdx
open scoped BigOperators

theorem topRows_at (W : (⟨2, ![256, 128]⟩ : Shape).Idx → EReal)
    (h : (⟨2, ![256, 128]⟩ : Shape).Slices ![0, 0] ⟨2, ![128, 128]⟩) (j k : Fin 128) :
    extractStridedSlice ⟨2, ![128, 128]⟩ ![0, 0] W h (ix2 j k) = W (ix2 (Fin.castAdd 128 j) k) :=
  slice2_axis0_apply 0 W h j k (Fin.castAdd 128 j) (by show j.val = 0 + j.val; omega)

theorem bottomRows_at (W : (⟨2, ![256, 128]⟩ : Shape).Idx → EReal)
    (h : (⟨2, ![256, 128]⟩ : Shape).Slices ![128, 0] ⟨2, ![128, 128]⟩) (j k : Fin 128) :
    extractStridedSlice ⟨2, ![128, 128]⟩ ![128, 0] W h (ix2 j k) = W (ix2 (Fin.natAdd 128 j) k) :=
  slice2_axis0_apply 128 W h j k (Fin.natAdd 128 j) (by show 128 + j.val = 128 + j.val; rfl)

theorem cat_left (x y : (⟨2, ![50000, 128]⟩ : Shape).Idx → EReal)
    (h : Shape.Concatenates [(⟨2, ![50000, 128]⟩ : Shape), ⟨2, ![50000, 128]⟩] ⟨2, ![50000, 256]⟩ 1)
    (r : Fin 50000) (j : Fin 128) :
    concatenate ⟨2, ![50000, 256]⟩ 1 [⟨⟨2, ![50000, 128]⟩, x⟩, ⟨⟨2, ![50000, 128]⟩, y⟩] h (ix2 r (Fin.castAdd 128 j))
      = x (ix2 r j) :=
  concatenate_pair_apply_left 1 x y h (ix2 r (Fin.castAdd 128 j)) rfl (ix2 r j) fun b => by
    match b with
    | ⟨0, _⟩ => rfl
    | ⟨1, _⟩ => rfl

theorem cat_right (x y : (⟨2, ![50000, 128]⟩ : Shape).Idx → EReal)
    (h : Shape.Concatenates [(⟨2, ![50000, 128]⟩ : Shape), ⟨2, ![50000, 128]⟩] ⟨2, ![50000, 256]⟩ 1)
    (r : Fin 50000) (j : Fin 128) :
    concatenate ⟨2, ![50000, 256]⟩ 1 [⟨⟨2, ![50000, 128]⟩, x⟩, ⟨⟨2, ![50000, 128]⟩, y⟩] h (ix2 r (Fin.natAdd 128 j))
      = y (ix2 r j) :=
  concatenate_pair_apply_right 1 x y h (ix2 r (Fin.natAdd 128 j)) rfl rfl (ix2 r j)
    (fun b hb => by
      match b with
      | ⟨0, _⟩ => rfl
      | ⟨1, _⟩ => exact absurd rfl hb)
    (by show j.val + 128 = 128 + j.val; omega)

theorem sum_split (f : Fin 256 → EReal) :
    ∑ j : Fin 256, f j = (∑ j : Fin 128, f (Fin.castAdd 128 j)) + ∑ j : Fin 128, f (Fin.natAdd 128 j) :=
  Fin.sum_univ_add (a := 128) (b := 128) f

/-- A row of parameters repeated along the rows reads, at `(r, q)`, its entry `q`. -/
theorem rowBcast_fun {α : Type} (x : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![50000, 128]⟩ ![0, 1]) :
    broadcastInDim ⟨2, ![50000, 128]⟩ ![0, 1] h2 (broadcastInDim ⟨2, ![1, 128]⟩ ![1] h1 x)
      = fun i => x (ix1 (i 1 : Fin 128)) :=
  funext fun i => (congrArg _ (eq_ix2 i)).trans (Mat.vec_rows x h1 h2 (i 0) (i 1))

/-- A scalar repeated over any shape is the constant array. -/
theorem scalarBcast_fun {α : Type} {t : Shape} (s : (⟨0, ![]⟩ : Shape).Idx → α) (h : (⟨0, ![]⟩ : Shape).BroadcastsInDim t ![]) :
    broadcastInDim t ![] h s = fun _ => s ix0 :=
  funext fun i => broadcastInDim_apply _ h s i ix0 fun a => a.elim0

section
variable [Cert.ReferenceIdeal.Facts] [Cert.KernelIdeal.Facts]

theorem bridge
    (h agg : Vec Ideal Cert.ReferenceIdeal.S50000x128 .f32)
    (uW1 : Vec Ideal Cert.ReferenceIdeal.S256x128 .f32)
    (ub1 : Vec Ideal Cert.ReferenceIdeal.S128 .f32)
    (uW2 : Vec Ideal Cert.ReferenceIdeal.S128x128 .f32)
    (ub2 bnG bnB bnM bnV : Vec Ideal Cert.ReferenceIdeal.S128 .f32) :
    kern h agg
        (extractStridedSlice Cert.KernelIdeal.S128x128 ![0, 0] uW1 Cert.KernelIdeal.Facts₀.slices_S256x128_S128x128_0_0)
        (extractStridedSlice Cert.KernelIdeal.S128x128 ![128, 0] uW1 Cert.KernelIdeal.Facts₀.slices_S256x128_S128x128_128_0)
        (shapeCast Cert.KernelIdeal.S1x128 ub1 Cert.KernelIdeal.Facts₀.shapeCasts_S128_S1x128)
        uW2
        (shapeCast Cert.KernelIdeal.S1x128 ub2 Cert.KernelIdeal.Facts₀.shapeCasts_S128_S1x128)
        (shapeCast Cert.KernelIdeal.S1x128 bnG Cert.KernelIdeal.Facts₀.shapeCasts_S128_S1x128)
        (shapeCast Cert.KernelIdeal.S1x128 bnB Cert.KernelIdeal.Facts₀.shapeCasts_S128_S1x128)
        (shapeCast Cert.KernelIdeal.S1x128 bnM Cert.KernelIdeal.Facts₀.shapeCasts_S128_S1x128)
        (shapeCast Cert.KernelIdeal.S1x128 bnV Cert.KernelIdeal.Facts₀.shapeCasts_S128_S1x128)
      = ref (F := Ideal) h agg uW1 ub1 uW2 ub2 bnG bnB bnM bnV := by
  funext i
  obtain ⟨r, q, rfl⟩ : ∃ (r : Fin 50000) (q : Fin 128), i = ix2 r q := ⟨i 0, i 1, eq_ix2 i⟩
  rw [kern_apply]
  unfold ref rowOut hidden
  rw [rowBcast_fun ub1, rowBcast_fun ub2, rowBcast_fun bnM, rowBcast_fun bnG, rowBcast_fun bnB,
    rowBcast_fun (Host.rsqrt _), scalarBcast_fun, scalarBcast_fun]
  simp only [addf_apply, mulf_apply, subf_apply, maximumf_apply, constant_apply, Host.rsqrt,
    shapeCast_a_1a_apply, topRows_at, bottomRows_at,
    Upd.dot_at Cert.ReferenceIdeal.dot_S50000x256_S256x128_S50000x128_1_0_0_1_n_n rfl,
    Upd.dot_at Cert.ReferenceIdeal.dot_S50000x128_S128x128_S50000x128_1_0_0_1_n_n rfl, sum_split, cat_left, cat_right]
  rfl

end

end Cert.St2

end
-- ==== Proof.St3.Spec.lean ====
import Idealize.ShloMosaic.Lib.ValueIdx

noncomputable section

open scoped BigOperators

namespace Cert.St3

open Idealize.ShloMosaic Idealize.ShloMosaic.ValueIdx

abbrev Mat (n k : Nat) : Type := Vec Ideal ⟨2, ![n, k]⟩ .f32

def hid {R : Nat} (xd xs : Mat R 128) (ea : Mat R 27) (w1d w1s : Mat 128 64) (w1e : Mat 27 64)
    (b1 : Mat 1 64) (r : Fin R) (j : Fin 64) : EReal :=
  ((∑ k : Fin 128, xd (ix2 r k) * w1d (ix2 k j) + ∑ k : Fin 128, xs (ix2 r k) * w1s (ix2 k j))
      + ∑ k : Fin 27, ea (ix2 r k) * w1e (ix2 k j))
    + b1 (ix2 0 j)

def mlp {R : Nat} (xd xs : Mat R 128) (ea : Mat R 27) (w1d w1s : Mat 128 64) (w1e : Mat 27 64)
    (b1 : Mat 1 64) (w2 : Mat 64 64) (b2 : Mat 1 64) : Mat R 64 := fun i =>
  (∑ j : Fin 64, max (hid xd xs ea w1d w1s w1e b1 (i 0) j) 0 * w2 (ix2 j (i 1))) + b2 (ix2 0 (i 1))

def kern (xd xs : Mat 400000 128) (ea : Mat 400000 27) (w1d w1s : Mat 128 64) (w1e : Mat 27 64)
    (b1 : Mat 1 64) (w2 : Mat 64 64) (b2 : Mat 1 64) : Mat 400000 64 :=
  mlp xd xs ea w1d w1s w1e b1 w2 b2

theorem kern_apply (xd xs : Mat 400000 128) (ea : Mat 400000 27) (w1d w1s : Mat 128 64) (w1e : Mat 27 64)
    (b1 : Mat 1 64) (w2 : Mat 64 64) (b2 : Mat 1 64) (r : Fin 400000) (c : Fin 64) :
    kern xd xs ea w1d w1s w1e b1 w2 b2 (ix2 r c)
      = (∑ j : Fin 64, max (hid xd xs ea w1d w1s w1e b1 r j) 0 * w2 (ix2 j c)) + b2 (ix2 0 c) := rfl

end Cert.St3
-- ==== Proof.St3.Bridge.lean ====
import proofs.«418876_j14568529068621_1_alg».proof.Proof.Gen.KernelIdeal
import proofs.«418876_j14568529068621_1_alg».proof.Proof.Gen.ReferenceIdeal
import proofs.«418876_j14568529068621_1_alg».proof.Proof.St3.Spec
import proofs.«418876_j14568529068621_1_alg».proof.Proof.St3.Ref
import proofs.«418876_j14568529068621_1_alg».proof.Proof.St1.Bridge
import Idealize.ShloMosaic.Lib.ValueLayout

noncomputable section

open scoped BigOperators

namespace Cert.St3

open Idealize.ShloMosaic Idealize.ShloMosaic.ValueIdx
open Cert.ReferenceIdeal Cert.ReferenceIdeal.Facts₀ Cert.ReferenceIdeal.Facts

/-- Everything after the first product is the same operation on both sides, and the first product splits over the three pieces. -/
theorem bridge (xd xs : Mat 400000 128) (ea : Mat 400000 27) (W1 : Mat 283 64) (b1 : Vec Ideal ⟨1, ![64]⟩ .f32)
    (W2 : Mat 64 64) (b2 : Vec Ideal ⟨1, ![64]⟩ .f32) :
    kern xd xs ea
        (extractStridedSlice Cert.KernelIdeal.S128x64 ![0, 0] W1 Cert.KernelIdeal.Facts₀.slices_S283x64_S128x64_0_0)
        (extractStridedSlice Cert.KernelIdeal.S128x64 ![128, 0] W1 Cert.KernelIdeal.Facts₀.slices_S283x64_S128x64_128_0)
        (extractStridedSlice Cert.KernelIdeal.S27x64 ![256, 0] W1 Cert.KernelIdeal.Facts₀.slices_S283x64_S27x64_256_0)
        (shapeCast Cert.KernelIdeal.S1x64 b1 Cert.KernelIdeal.Facts₀.shapeCasts_S64_S1x64) W2
        (shapeCast Cert.KernelIdeal.S1x64 b2 Cert.KernelIdeal.Facts₀.shapeCasts_S64_S1x64)
      = ref (F := Ideal) xd xs ea W1 b1 W2 b2 := by
  funext i
  obtain ⟨r, c, rfl⟩ : ∃ (r : Fin 400000) (c : Fin 64), i = ix2 r c := ⟨i 0, i 1, eq_ix2 i⟩
  rw [kern_apply]
  unfold ref hid
  simp only [Host.dotGeneral]
  rw [addf_apply, St1.dotGeneral_ix2 dot_S400000x64_S64x64_S400000x64_1_0_0_1_n_n rfl, Mat.vec_rows, shapeCast_a_1a_apply b2]
  refine congrArg (· + b2 (ix1 c)) (Finset.sum_congr rfl fun j _ => ?_)
  rw [maximumf_apply, St1.zero_host, Ideal.ofBits_zero_f32, addf_apply, St1.dotGeneral_ix2 dot_S400000x283_S283x64_S400000x64_1_0_0_1_n_n rfl,
    Mat.vec_rows, shapeCast_a_1a_apply b1, St1.first_layer xd xs ea _ W1 Cert.KernelIdeal.Facts₀.slices_S283x64_S128x64_0_0 Cert.KernelIdeal.Facts₀.slices_S283x64_S128x64_128_0
      Cert.KernelIdeal.Facts₀.slices_S283x64_S27x64_256_0 r j]

end Cert.St3
-- ==== Proof.St4.Spec.lean ====
import Idealize.ShloMosaic.Lib.ValueIdx
import Idealize.ShloMosaic.PureOps.Ideal.Laws

noncomputable section

open scoped BigOperators

namespace Cert.St4

open Idealize.ShloMosaic Idealize.ShloMosaic.ValueIdx

abbrev Arr (n m : Nat) : Type := (⟨2, ![n, m]⟩ : Shape).Idx → EReal

abbrev zeroW : EReal := Ideal.ofBits .f32 0x00000000#32

abbrev epsW : EReal := Ideal.ofBits .f32 0x3727C5AC#32

def hid {n : Nat} (hA : Arr n 128) (agg : Arr n 64) (w1x : Arr 128 64) (w1a : Arr 64 64) (b1 : Arr 1 64)
    (r : Fin n) (k : Fin 64) : EReal :=
  max (((∑ a : Fin 128, hA (ix2 r a) * w1x (ix2 a k)) + (∑ a : Fin 64, agg (ix2 r a) * w1a (ix2 a k)))
        + b1 (ix2 (0 : Fin 1) k)) zeroW

def kernAt {n : Nat} (hA : Arr n 128) (agg : Arr n 64) (w1x : Arr 128 64) (w1a : Arr 64 64) (b1 : Arr 1 64)
    (w2 : Arr 64 64) (b2 : Arr 1 64) (g : Arr 1 64) (bt : Arr 1 64) (mu : Arr 1 64) (var : Arr 1 64)
    (rw : Arr 128 64) (rb : Arr 1 64) (r : Fin n) (j : Fin 64) : EReal :=
  ((∑ a : Fin 128, hA (ix2 r a) * rw (ix2 a j)) + rb (ix2 (0 : Fin 1) j))
    + max ((((((∑ k : Fin 64, hid hA agg w1x w1a b1 r k * w2 (ix2 k j)) + b2 (ix2 (0 : Fin 1) j))
                - mu (ix2 (0 : Fin 1) j))
              * Ideal.rsqrt (var (ix2 (0 : Fin 1) j) + epsW))
            * g (ix2 (0 : Fin 1) j))
          + bt (ix2 (0 : Fin 1) j)) zeroW

theorem kernAt_congr_rows {n n' : Nat} (hA : Arr n 128) (agg : Arr n 64) (hA' : Arr n' 128) (agg' : Arr n' 64)
    (w1x : Arr 128 64) (w1a : Arr 64 64) (b1 : Arr 1 64)
    (w2 : Arr 64 64) (b2 : Arr 1 64) (g : Arr 1 64) (bt : Arr 1 64) (mu : Arr 1 64) (var : Arr 1 64)
    (rw : Arr 128 64) (rb : Arr 1 64) (r : Fin n) (r' : Fin n') (j : Fin 64)
    (h0 : ∀ a : Fin 128, hA (ix2 r a) = hA' (ix2 r' a)) (h1 : ∀ a : Fin 64, agg (ix2 r a) = agg' (ix2 r' a)) :
    kernAt hA agg w1x w1a b1 w2 b2 g bt mu var rw rb r j = kernAt hA' agg' w1x w1a b1 w2 b2 g bt mu var rw rb r' j := by
  unfold kernAt hid
  simp only [h0, h1]

def kern (hA : Arr 50000 128) (agg : Arr 50000 64) (w1x : Arr 128 64) (w1a : Arr 64 64) (b1 : Arr 1 64)
    (w2 : Arr 64 64) (b2 : Arr 1 64) (g : Arr 1 64) (bt : Arr 1 64) (mu : Arr 1 64) (var : Arr 1 64)
    (rw : Arr 128 64) (rb : Arr 1 64) : Arr 50000 64 :=
  fun i => kernAt hA agg w1x w1a b1 w2 b2 g bt mu var rw rb (i 0) (i 1)

end Cert.St4

end
-- ==== Proof.St4.Bridge.lean ====
import proofs.«418876_j14568529068621_1_alg».proof.KernelIdeal
import proofs.«418876_j14568529068621_1_alg».proof.Proof.St4.Ref
import proofs.«418876_j14568529068621_1_alg».proof.Proof.St4.Spec
import proofs.«418876_j14568529068621_1_alg».proof.Proof.Upd
import proofs.«418876_j14568529068621_1_alg».proof.Proof.Mat
import Idealize.ShloMosaic.Lib.Pipeline.Value
import Idealize.ShloMosaic.Lib.ValueLayout

noncomputable section

open scoped BigOperators

namespace Cert.St4

open Idealize.ShloMosaic Idealize.ShloMosaic.ValueIdx

variable [Cert.KernelIdeal.Facts] [Cert.ReferenceIdeal.Facts]

abbrev Row64 : Type := (⟨1, ![64]⟩ : Shape).Idx → EReal

theorem scalar_bcast2_apply (w : BitVec 32) (r : Fin 50000) (j : Fin 64) :
    broadcastInDim Cert.ReferenceIdeal.S50000x64 ![] Cert.ReferenceIdeal.Facts₀.bcast_S_S50000x64
        (constant (F := Ideal) Cert.ReferenceIdeal.S_ .f32 w) (ix2 r j) = Ideal.ofBits .f32 w := rfl

theorem cat_left (hA : Arr 50000 128) (agg : Arr 50000 64) (r : Fin 50000) (a : Fin 128) :
    concatenate Cert.ReferenceIdeal.S50000x192 1 [⟨Cert.ReferenceIdeal.S50000x128, hA⟩, ⟨Cert.ReferenceIdeal.S50000x64, agg⟩]
        Cert.ReferenceIdeal.Facts₀.concatenates_S50000x128_S50000x64_S50000x192_d1 (ix2 r (Fin.castAdd 64 a))
      = hA (ix2 r a) :=
  concatenate_pair_apply_left (t := Cert.ReferenceIdeal.S50000x192) (s₁ := Cert.ReferenceIdeal.S50000x128)
    (s₂ := Cert.ReferenceIdeal.S50000x64) (1 : Fin 2) hA agg Cert.ReferenceIdeal.Facts₀.concatenates_S50000x128_S50000x64_S50000x192_d1
    (ix2 r (Fin.castAdd 64 a)) rfl (ix2 r a) fun b => by
    match b with
    | ⟨0, _⟩ => rfl
    | ⟨1, _⟩ => rfl

theorem cat_right (hA : Arr 50000 128) (agg : Arr 50000 64) (r : Fin 50000) (a : Fin 64) :
    concatenate Cert.ReferenceIdeal.S50000x192 1 [⟨Cert.ReferenceIdeal.S50000x128, hA⟩, ⟨Cert.ReferenceIdeal.S50000x64, agg⟩]
        Cert.ReferenceIdeal.Facts₀.concatenates_S50000x128_S50000x64_S50000x192_d1 (ix2 r (Fin.natAdd 128 a))
      = agg (ix2 r a) :=
  concatenate_pair_apply_right (t := Cert.ReferenceIdeal.S50000x192) (s₁ := Cert.ReferenceIdeal.S50000x128)
    (s₂ := Cert.ReferenceIdeal.S50000x64) (1 : Fin 2) hA agg Cert.ReferenceIdeal.Facts₀.concatenates_S50000x128_S50000x64_S50000x192_d1
    (ix2 r (Fin.natAdd 128 a)) rfl rfl (ix2 r a)
    (fun b hb => by
      match b with
      | ⟨0, _⟩ => rfl
      | ⟨1, _⟩ => exact absurd rfl hb)
    (Nat.add_comm a.val 128)

theorem w1x_apply (uW1 : Arr 192 64) (a : Fin 128) (k : Fin 64) :
    extractStridedSlice Cert.KernelIdeal.S128x64 ![0, 0] uW1 Cert.KernelIdeal.Facts₀.slices_S192x64_S128x64_0_0 (ix2 a k)
      = uW1 (ix2 (Fin.castAdd 64 a) k) :=
  slice2_axis0_apply 0 uW1 _ a k (Fin.castAdd 64 a) (Nat.zero_add _).symm

theorem w1a_apply (uW1 : Arr 192 64) (a : Fin 64) (k : Fin 64) :
    extractStridedSlice Cert.KernelIdeal.S64x64 ![128, 0] uW1 Cert.KernelIdeal.Facts₀.slices_S192x64_S64x64_128_0 (ix2 a k)
      = uW1 (ix2 (Fin.natAdd 128 a) k) :=
  slice2_axis0_apply 128 uW1 _ a k (Fin.natAdd 128 a) rfl

theorem row_apply (v : Row64) (j : Fin 64) :
    shapeCast Cert.KernelIdeal.S1x64 v Cert.KernelIdeal.Facts₀.shapeCasts_S64_S1x64 (ix2 (0 : Fin 1) j) = v (ix1 j) :=
  shapeCast_a_1a_apply v _ 0 j

theorem hid_eq (hA : Arr 50000 128) (agg : Arr 50000 64) (uW1 : Arr 192 64) (ub1 : Row64) (r : Fin 50000) (k : Fin 64) :
    hid hA agg
        (extractStridedSlice Cert.KernelIdeal.S128x64 ![0, 0] uW1 Cert.KernelIdeal.Facts₀.slices_S192x64_S128x64_0_0)
        (extractStridedSlice Cert.KernelIdeal.S64x64 ![128, 0] uW1 Cert.KernelIdeal.Facts₀.slices_S192x64_S64x64_128_0)
        (shapeCast Cert.KernelIdeal.S1x64 ub1 Cert.KernelIdeal.Facts₀.shapeCasts_S64_S1x64) r k
      = max ((∑ c : Fin 192, concatenate Cert.ReferenceIdeal.S50000x192 1 [⟨Cert.ReferenceIdeal.S50000x128, hA⟩, ⟨Cert.ReferenceIdeal.S50000x64, agg⟩]
                Cert.ReferenceIdeal.Facts₀.concatenates_S50000x128_S50000x64_S50000x192_d1 (ix2 r c) * uW1 (ix2 c k))
              + ub1 (ix1 k)) zeroW := by
  unfold hid
  rw [row_apply]
  refine congrArg (fun s => max (s + ub1 (ix1 k)) zeroW) ?_
  refine ((Fin.sum_univ_add (a := 128) (b := 64) fun c : Fin (128 + 64) =>
    concatenate Cert.ReferenceIdeal.S50000x192 1 [⟨Cert.ReferenceIdeal.S50000x128, hA⟩, ⟨Cert.ReferenceIdeal.S50000x64, agg⟩]
      Cert.ReferenceIdeal.Facts₀.concatenates_S50000x128_S50000x64_S50000x192_d1 (ix2 r c) * uW1 (ix2 c k)).trans ?_).symm
  refine congrArg₂ (· + ·) (Finset.sum_congr rfl fun a _ => ?_) (Finset.sum_congr rfl fun a _ => ?_)
  · rw [cat_left, w1x_apply]
  · rw [cat_right, w1a_apply]

theorem bridge (hA : Arr 50000 128) (agg : Arr 50000 64) (uW1 : Arr 192 64) (ub1 : Row64) (uW2 : Arr 64 64) (ub2 : Row64)
    (bng bnb bnm bnv : Row64) (resW : Arr 128 64) (resb : Row64) :
    kern hA agg
        (extractStridedSlice Cert.KernelIdeal.S128x64 ![0, 0] uW1 Cert.KernelIdeal.Facts₀.slices_S192x64_S128x64_0_0)
        (extractStridedSlice Cert.KernelIdeal.S64x64 ![128, 0] uW1 Cert.KernelIdeal.Facts₀.slices_S192x64_S64x64_128_0)
        (shapeCast Cert.KernelIdeal.S1x64 ub1 Cert.KernelIdeal.Facts₀.shapeCasts_S64_S1x64)
        uW2
        (shapeCast Cert.KernelIdeal.S1x64 ub2 Cert.KernelIdeal.Facts₀.shapeCasts_S64_S1x64)
        (shapeCast Cert.KernelIdeal.S1x64 bng Cert.KernelIdeal.Facts₀.shapeCasts_S64_S1x64)
        (shapeCast Cert.KernelIdeal.S1x64 bnb Cert.KernelIdeal.Facts₀.shapeCasts_S64_S1x64)
        (shapeCast Cert.KernelIdeal.S1x64 bnm Cert.KernelIdeal.Facts₀.shapeCasts_S64_S1x64)
        (shapeCast Cert.KernelIdeal.S1x64 bnv Cert.KernelIdeal.Facts₀.shapeCasts_S64_S1x64)
        resW
        (shapeCast Cert.KernelIdeal.S1x64 resb Cert.KernelIdeal.Facts₀.shapeCasts_S64_S1x64)
      = ref (F := Ideal) hA agg uW1 ub1 uW2 ub2 bng bnb bnm bnv resW resb := by
  funext i
  obtain ⟨r, j, rfl⟩ : ∃ (r : Fin 50000) (j : Fin 64), i = ix2 r j := ⟨i 0, i 1, eq_ix2 i⟩
  show kernAt _ _ _ _ _ _ _ _ _ _ _ _ _ r j = _
  unfold kernAt ref
  simp only [hid_eq, row_apply]
  rw [addf_apply, addf_apply, Upd.dot_at Cert.ReferenceIdeal.dot_S50000x128_S128x64_S50000x64_1_0_0_1_n_n rfl, Mat.vec_rows, maximumf_apply, scalar_bcast2_apply,
    addf_apply, mulf_apply, mulf_apply, subf_apply, addf_apply, Upd.dot_at Cert.ReferenceIdeal.dot_S50000x64_S64x64_S50000x64_1_0_0_1_n_n rfl,
    Mat.vec_rows, Mat.vec_rows, Mat.vec_rows, Mat.vec_rows, Mat.vec_rows]
  refine congrArg (fun s => (∑ a : Fin 128, hA (ix2 r a) * resW (ix2 a j)) + resb (ix1 j)
      + max ((((s + ub2 (ix1 j)) - bnm (ix1 j)) * _) * bng (ix1 j) + bnb (ix1 j)) _) ?_
  refine Finset.sum_congr rfl fun k _ => ?_
  rw [maximumf_apply, addf_apply, Upd.dot_at Cert.ReferenceIdeal.dot_S50000x192_S192x64_S50000x64_1_0_0_1_n_n rfl, Mat.vec_rows, scalar_bcast2_apply]

end Cert.St4

end
-- ==== Proof.St5.Spec.lean ====
import proofs.«418876_j14568529068621_1_alg».proof.Proof.Mat

noncomputable section

namespace Cert.St5

open Idealize.ShloMosaic Idealize.ShloMosaic.ValueIdx Cert.Mat
open scoped BigOperators

/-- Unit k of the hidden layer of a row of 64 features: the positive part of an affine image of the row. -/
def hidden (hr : Fin 64 → EReal) (w1 : M 64 32) (b1 : M 1 32) (k : Fin 32) : EReal :=
  max ((∑ l, hr l * w1 (ix2 l k)) + b1 (ix2 0 k)) 0

/-- The classifier's value of a row: an affine image of its hidden layer. -/
def logit (hr : Fin 64 → EReal) (w1 : M 64 32) (b1 : M 1 32) (w2 : M 32 1) (b2 : M 1 1) (q : Fin 1) : EReal :=
  (∑ k, hidden hr w1 b1 k * w2 (ix2 k q)) + b2 (ix2 0 q)

def kern (h : M 50000 64) (w1 : M 64 32) (b1 : M 1 32) (w2 : M 32 1) (b2 : M 1 1) : M 50000 1 :=
  fun i => logit (fun l => h (ix2 (i 0) l)) w1 b1 w2 b2 (i 1)

end Cert.St5
-- ==== Proof.St5.Bridge.lean ====
import proofs.«418876_j14568529068621_1_alg».proof.Proof.St5.Ref
import proofs.«418876_j14568529068621_1_alg».proof.Proof.St5.Spec

noncomputable section

namespace Cert.St5

open Idealize.ShloMosaic Idealize.ShloMosaic.ValueIdx
open Cert.ReferenceIdeal Cert.ReferenceIdeal.Facts₀ Cert.ReferenceIdeal.Facts Cert.Mat
open scoped BigOperators

variable [Cert.ReferenceIdeal.Facts]

/-- Read at an index, both sides are the same sums: a product is the sum over the contracted coordinate, a bias reads its own entry. -/
theorem bridge (h : FVec Ideal S50000x64 .f32) (w1 : FVec Ideal S64x32 .f32) (b1 : FVec Ideal S32 .f32)
    (w2 : FVec Ideal S32x1 .f32) (b2 : FVec Ideal S1 .f32)
    (h1 : S32.ShapeCasts S1x32) (h2 : S1.ShapeCasts S1x1) (h3 : S50000x1.ShapeCasts S50000) :
    shapeCast S50000 (kern h w1 (shapeCast S1x32 b1 h1) w2 (shapeCast S1x1 b2 h2)) h3
      = ref (F := Ideal) h w1 b1 w2 b2 := by
  show _ = shapeCast S50000 _ shapeCasts_S50000x1_S50000
  refine congrArg (fun x => shapeCast S50000 x h3) (funext fun i => ?_)
  obtain ⟨r, q, rfl⟩ : ∃ (r : Fin 50000) (q : Fin 1), i = ix2 r q := ⟨i 0, i 1, eq_ix2 i⟩
  symm
  refine congrArg₂ (· + ·) ((StackMember.dotGeneral_plain_apply none _ _ r q).trans
      (Finset.sum_congr rfl fun k _ => congrArg (· * w2 (ix2 k q)) ?_))
    ((vec_rows b2 _ _ r q).trans (shapeCast_a_1a_apply b2 h2 0 q).symm)
  exact congrArg₂ max (congrArg₂ (· + ·) (StackMember.dotGeneral_plain_apply none h w1 r k)
      ((vec_rows b1 _ _ r k).trans (shapeCast_a_1a_apply b1 h1 0 k).symm))
    ((broadcastInDim_scalar_apply _ _ _).trans Ideal.ofBits_zero_f32)

end Cert.St5
-- ==== Proof.St0.Pay.lean ====
import proofs.«418876_j14568529068621_1_alg».proof.Proof.Gen.KernelIdeal.Skeleton
import proofs.«418876_j14568529068621_1_alg».proof.Proof.St0.Spec
import proofs.«418876_j14568529068621_1_alg».proof.Proof.Mat

noncomputable section

namespace Cert.St0

open Idealize.ShloMosaic Idealize.ShloMosaic.ValueIdx
open Cert.KernelIdeal Cert.KernelIdeal.Gen Cert.Mat
open scoped BigOperators

variable (v : Vec Ideal S5000x130 .f32) (g b : Vec Ideal S1x130 .f32) (W : Vec Ideal S130x128 .f32)
  (pb : Vec Ideal S1x128 .f32) (p : Fin 5000)

/-- The row sums of a block of 5000 rows divided by 130, as one column. -/
def colAvg : FVec Ideal S5000x1 .f32 :=
  divf (shapeCast S5000x1 (multiReduction .add [1] S5000 v 0x00000000#32 reduces_S5000x130_S5000 (.inl rfl) rfl) shapeCasts_S5000_S5000x1)
    (broadcast S5000x1 (Scalar.ofBits .f32 0x43020000#32))

theorem colAvg_apply (u : Fin 1) : colAvg v (ix2 p u) = avg fun k => v (ix2 p k) :=
  congrArg (Ideal.div · _) ((cast_col _ _ p u).trans (rowSum v _ _ _ _ p))

/-- The block's deviations from its row averages. -/
def blkDev : FVec Ideal S5000x130 .f32 :=
  subf v (broadcastTo S5000x130 (colAvg v) broadcasts_S5000x1_S5000x130)

theorem blkDev_apply (k : Fin 130) : blkDev v (ix2 p k) = v (ix2 p k) - avg fun k => v (ix2 p k) :=
  congrArg (v (ix2 p k) - ·) ((col_to _ _ p k).trans (colAvg_apply v p 0))

/-- The block normalised, scaled and shifted. -/
def blkNormed : FVec Ideal S5000x130 .f32 :=
  addf
    (mulf
      (mulf (blkDev v)
        (broadcastTo S5000x130 (rsqrt (addf (colAvg (mulf (blkDev v) (blkDev v))) (broadcast S5000x1 (Scalar.ofBits .f32 0x3727C5AC#32)))) broadcasts_S5000x1_S5000x130))
      (broadcastTo S5000x130 (shapeCast S1x130 g shapeCasts_S1x130_S1x130) broadcasts_S1x130_S5000x130))
    (broadcastTo S5000x130 (shapeCast S1x130 b shapeCasts_S1x130_S1x130) broadcasts_S1x130_S5000x130)

theorem blkNormed_apply (k : Fin 130) : blkNormed v g b (ix2 p k) = rowNormed (fun k => v (ix2 p k)) g b k := by
  refine congrArg₂ (· + ·) (congrArg₂ (· * ·) (congrArg₂ (· * ·) (blkDev_apply v p k) ((col_to _ _ p k).trans ?_)) ?_) ?_
  · refine congrArg (fun s => Ideal.rsqrt (s + _)) ((colAvg_apply _ p 0).trans (congrArg avg (funext fun k => ?_)))
    exact congrArg₂ (· * ·) (blkDev_apply v p k) (blkDev_apply v p k)
  · exact (broadcastTo_1b_ab_apply _ _ p k).trans (congrFun (shapeCast_self g _) _)
  · exact (broadcastTo_1b_ab_apply _ _ p k).trans (congrFun (shapeCast_self b _) _)

/-- On a block of 5000 rows the body computes the stage, row by row. -/
theorem pay_eq_kernRows : k0_pay1 (F := Ideal) v g b W pb = kernRows 5000 v g b W pb := by
  funext j
  obtain ⟨p, q, rfl⟩ : ∃ (p : Fin 5000) (q : Fin 128), j = ix2 p q := ⟨j 0, j 1, eq_ix2 j⟩
  refine congrArg (max · _) (congrArg₂ (· + ·) ((mm none _ _ p q).trans (Finset.sum_congr rfl fun k _ => ?_)) ?_)
  · exact congrArg (· * W (ix2 k q)) (blkNormed_apply v g b p k)
  · exact (broadcastTo_1b_ab_apply _ _ p q).trans (congrFun (shapeCast_self pb _) _)

end Cert.St0
-- ==== Proof.St0.Kern.lean ====
import proofs.«418876_j14568529068621_1_alg».proof.Proof.Gen.KernelIdeal.Frame
import proofs.«418876_j14568529068621_1_alg».proof.Proof.St0.Pay
import Idealize.ShloMosaic.Lib.Pipeline.Value

noncomputable section

namespace Cert.St0

open Idealize.ShloMosaic Idealize.ShloMosaic.TcCoe Idealize.ShloMosaic.ValueIdx Idealize.SL.Sem
open Idealize.ShloMosaic.Pipeline (Dat Window)
open Cert.KernelIdeal Cert.KernelIdeal.Gen

variable (V : (c : Dev nD) → (b : Ref sig .tc) → Buf (Elt Ideal) ((c : Thread nD τ).loc b)) (c : Dev nD) (t : Fin cfg0.N)

abbrev arr (w : Fin cfg0.W) := V c (Pipeline.arrRef spec0 w)

/-- The stage of the five input arrays. -/
abbrev goal : Vec Ideal S50000x128 .f32 := kern (arr V c 0) (arr V c 1) (arr V c 2) (arr V c 3) (arr V c 4)

theorem hz : (![0, 0] : Fin 2 → Nat) = fun _ => 0 := funext fun a => by fin_cases a <;> rfl

theorem idx_facts : ∀ (t : Fin cfg0.N) (a : Fin 2), win0_1.index t a = 0 ∧ win0_2.index t a = 0 ∧ win0_3.index t a = 0
    ∧ win0_4.index t a = 0 ∧ win0_0.index t (1 : Fin 2) = 0 ∧ win0_5.index t (1 : Fin 2) = 0 ∧ win0_0.index t (0 : Fin 2) = t.val ∧ win0_5.index t (0 : Fin 2) = t.val :=
  (by decide +kernel : ∀ (t : Fin grid0.N) (a : Fin 2), _)

theorem iblk_1 : (iblk0 V c 1 t : Vec Ideal S1x130 .f32) = arr V c 1 :=
  funext fun y => congrArg (arr V c 1) (funext fun a => Fin.ext (Window.rect_emb_val_of_index_zero win0_1 t a (idx_facts t a).1 y))

theorem iblk_2 : (iblk0 V c 2 t : Vec Ideal S1x130 .f32) = arr V c 2 :=
  funext fun y => congrArg (arr V c 2) (funext fun a => Fin.ext (Window.rect_emb_val_of_index_zero win0_2 t a (idx_facts t a).2.1 y))

theorem iblk_3 : (iblk0 V c 3 t : Vec Ideal S130x128 .f32) = arr V c 3 :=
  funext fun y => congrArg (arr V c 3) (funext fun a => Fin.ext (Window.rect_emb_val_of_index_zero win0_3 t a (idx_facts t a).2.2.1 y))

theorem iblk_4 : (iblk0 V c 4 t : Vec Ideal S1x128 .f32) = arr V c 4 :=
  funext fun y => congrArg (arr V c 4) (funext fun a => Fin.ext (Window.rect_emb_val_of_index_zero win0_4 t a (idx_facts t a).2.2.2.1 y))

/-- Row p of block t is row 5000 t + p of its array, for the input and the output alike. -/
theorem flushed_eq : (dat0 (F := Ideal) V c).flushed 5 t = ((cfg0.win 5).blk t).view.read (Elt Ideal) (goal V c) := by
  show (cfg0.win 5).cut (grid0.coords t) ((dat0 (F := Ideal) V c).after 5 t) = _
  rw [after0_5]
  unfold out0_5
  rw [View.canon_unit_zero hz]
  simp only [View.ld_unit_zero (S := S5000x130) hz, View.ld_unit_zero (S := S1x130) hz,
    View.ld_unit_zero (S := S130x128) hz, View.ld_unit_zero (S := S1x128) hz]
  rw [pay_eq_kernRows, iblk_1, iblk_2, iblk_3, iblk_4]
  obtain ⟨-, -, -, -, e01, e51, e00, e50⟩ := idx_facts t 0
  funext y
  show rowOut (fun k => arr V c 0 (((cfg0.win 0).blk t).view.emb (ix2 (y 0) k))) _ _ _ _ (y 1)
    = rowOut (fun k => arr V c 0 (ix2 ((((cfg0.win 5).blk t).view.emb y : S50000x128.Idx) 0) k)) _ _ _ _ ((((cfg0.win 5).blk t).view.emb y : S50000x128.Idx) 1)
  refine congrArg₂ (rowOut · _ _ _ _ ·) (funext fun k => congrArg (arr V c 0) (funext fun a => Fin.ext ?_)) (Fin.ext ?_)
  · match a with
    | ⟨0, _⟩ => show win0_0.index t (0 : Fin 2) * 5000 + 1 * (y 0).val = win0_5.index t (0 : Fin 2) * 5000 + 1 * (y 0).val; omega
    | ⟨1, _⟩ => show win0_0.index t (1 : Fin 2) * 130 + 1 * k.val = k.val; omega
  · show (y 1).val = win0_5.index t (1 : Fin 2) * 128 + 1 * (y 1).val; omega

/-- Row r of the output is in the block of point r / 5000. -/
theorem cover (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 10 := N_0
  let t : Fin cfg0.N := ⟨(i 0).val / 5000, by omega⟩
  have ht : t.val = (i 0).val / 5000 := rfl
  obtain ⟨-, -, -, -, -, e1, -, e0⟩ := idx_facts t 0
  refine ⟨t, flush0_5 t, ?_⟩
  show i ∈ ((View.whole main_v7).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The ten blocks tile the output, so it ends as the stage of the five input arrays. -/
theorem value : (dat0 (F := Ideal) V c).arrAt 5 cfg0.N
    = kern (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 (goal V c) (fun t _ => flushed_eq V c t) cover

end Cert.St0
-- ==== Proof.St1.Pay.lean ====
import proofs.«418876_j14568529068621_1_alg».proof.Proof.Gen.KernelIdeal.Skeleton
import proofs.«418876_j14568529068621_1_alg».proof.Proof.St1.Dot
import proofs.«418876_j14568529068621_1_alg».proof.Proof.St1.Spec
import Idealize.ShloMosaic.Lib.Pipeline.Value
import Idealize.ShloMosaic.Lib.ValueLayout

noncomputable section

open scoped BigOperators

namespace Cert.St1

open Idealize.ShloMosaic Idealize.ShloMosaic.ValueIdx
open Cert.KernelIdeal Cert.KernelIdeal.Gen
open Cert.KernelIdeal.Facts₀ Cert.KernelIdeal.Facts

/-- Over the extended reals each product is the plain sum over the inner index, and a one-row bias is read at its one row. -/
theorem pay_apply (x0 : Mat 5000 128) (w1d : Mat 128 128) (x1 : Mat 5000 128) (w1s : Mat 128 128) (x2 : Mat 5000 27) (w1e : Mat 27 128)
    (b1 : Mat 1 128) (w2 : Mat 128 128) (b2 : Mat 1 128) (p : Fin 5000) (q : Fin 128) :
    k1_pay1 (F := Ideal) x0 w1d x1 w1s x2 w1e b1 w2 b2 (ix2 p q)
      = cell (fun j => x0 (ix2 p j)) (fun j => x1 (ix2 p j)) (fun j => x2 (ix2 p j)) w1d w1s w1e b1 w2 b2 q := by
  unfold k1_pay1 cell
  simp only [shapeCast_self, addf_apply, matmul_zero_ix2 dot_S5000x128_S128x128_S5000x128_1_0_0_1_n_n rfl,
    matmul_zero_ix2 dot_S5000x27_S27x128_S5000x128_1_0_0_1_n_n rfl, truncf_apply, maximumf_apply, broadcast_apply,
    broadcastTo_1b_ab_apply]
  rfl

end Cert.St1

end
-- ==== Proof.St1.Kern.lean ====
import proofs.«418876_j14568529068621_1_alg».proof.Proof.Gen.KernelIdeal.Frame
import proofs.«418876_j14568529068621_1_alg».proof.Proof.St1.Pay
import proofs.«418876_j14568529068621_1_alg».proof.Proof.St1.Spec
import Idealize.ShloMosaic.Lib.Pipeline.Value

noncomputable section

open scoped BigOperators

namespace Cert.St1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Over the 80 points a row-tiled array's block index is (t, 0) and a whole array's is (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (win1_9.index t (0 : Fin 2) = t.val ∧ win1_9.index t (1 : Fin 2) = 0) :=
  (by decide +kernel : ∀ t : Fin grid1.N, _)

theorem t_lt (t : Fin cfg1.N) : t.val < 80 :=
  lt_of_lt_of_eq t.isLt (show cfg1.N = 80 from N_1)

/-- The 80 blocks of 5000 rows cover the 400000 rows: row i is in block ⌊i / 5000⌋. -/
theorem cover (i : S400000x128.Idx) : ∃ t : Fin cfg1.N, (cfg1.win 9).flush t = true ∧ i ∈ ((cfg1.win 9).blk t).view.set := by
  have hi0 : (i 0).val < 400000 := (i 0).isLt
  have hi1 : (i 1).val < 128 := (i 1).isLt
  let t : Fin cfg1.N := ⟨(i 0).val / 5000, by rw [show cfg1.N = 80 from N_1]; omega⟩
  have htv : t.val = (i 0).val / 5000 := rfl
  obtain ⟨-, -, -, -, -, -, -, -, -, e0, e1⟩ := idx_facts t
  refine ⟨t, flush1_9 t, ?_⟩
  show i ∈ ((View.whole main_v15).slice (win1_9.rect t)).set
  rw [View.set_slice_whole, Rect.mem_set_unit]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

variable (c : Dev nD) (t : Fin cfg1.N)

abbrev arr (w : Fin cfg1.W) := V c (Pipeline.arrRef spec1 w)

abbrev outArr : Mat 400000 128 :=
  kern (arr V c 0) (arr V c 1) (arr V c 2) (arr V c 3) (arr V c 4) (arr V c 5) (arr V c 6) (arr V c 7) (arr V c 8)

/-- A block entry sits in its array at block index times block size plus its own place, so row p of a row-tiled block at point t is row 5000 t + p. -/
theorem bXd_row (p : Fin 5000) (r : Fin 400000) (hr : r.val = 5000 * t.val + p.val) :
    (fun j : Fin 128 => (iblk1 V c 0 t : Mat 5000 128) (ix2 p j)) = fun j => arr V c 0 (ix2 r j) := by
  obtain ⟨⟨e0, e1⟩, -⟩ := idx_facts t
  funext j
  show arr V c 0 (((cfg1.win 0).blk t).view.emb (ix2 p j)) = arr V c 0 (ix2 r j)
  refine congrArg _ (Shape.idx_ext₂ ?_ (win1_0.rect_emb_val_of_index_zero t (1 : Fin 2) e1 _))
  show win1_0.index t (0 : Fin 2) * 5000 + 1 * p.val = r.val
  omega

theorem bXs_row (p : Fin 5000) (r : Fin 400000) (hr : r.val = 5000 * t.val + p.val) :
    (fun j : Fin 128 => (iblk1 V c 1 t : Mat 5000 128) (ix2 p j)) = fun j => arr V c 1 (ix2 r j) := by
  obtain ⟨-, ⟨e0, e1⟩, -⟩ := idx_facts t
  funext j
  show arr V c 1 (((cfg1.win 1).blk t).view.emb (ix2 p j)) = arr V c 1 (ix2 r j)
  refine congrArg _ (Shape.idx_ext₂ ?_ (win1_1.rect_emb_val_of_index_zero t (1 : Fin 2) e1 _))
  show win1_1.index t (0 : Fin 2) * 5000 + 1 * p.val = r.val
  omega

theorem bEa_row (p : Fin 5000) (r : Fin 400000) (hr : r.val = 5000 * t.val + p.val) :
    (fun j : Fin 27 => (iblk1 V c 2 t : Mat 5000 27) (ix2 p j)) = fun j => arr V c 2 (ix2 r j) := by
  obtain ⟨-, -, ⟨e0, e1⟩, -⟩ := idx_facts t
  funext j
  show arr V c 2 (((cfg1.win 2).blk t).view.emb (ix2 p j)) = arr V c 2 (ix2 r j)
  refine congrArg _ (Shape.idx_ext₂ ?_ (win1_2.rect_emb_val_of_index_zero t (1 : Fin 2) e1 _))
  show win1_2.index t (0 : Fin 2) * 5000 + 1 * p.val = r.val
  omega

/-- A block at index (0, 0) that is as large as its array is the array. -/
theorem bW1d_eq : (iblk1 V c 3 t : Mat 128 128) = arr V c 3 := by
  obtain ⟨-, -, -, e, -⟩ := idx_facts t
  funext y
  show arr V c 3 (((cfg1.win 3).blk t).view.emb y) = arr V c 3 y
  exact congrArg _ (funext fun a => Fin.ext (win1_3.rect_emb_val_of_index_zero t a (e a) y))

theorem bW1s_eq : (iblk1 V c 4 t : Mat 128 128) = arr V c 4 := by
  obtain ⟨-, -, -, -, e, -⟩ := idx_facts t
  funext y
  show arr V c 4 (((cfg1.win 4).blk t).view.emb y) = arr V c 4 y
  exact congrArg _ (funext fun a => Fin.ext (win1_4.rect_emb_val_of_index_zero t a (e a) y))

theorem bW1e_eq : (iblk1 V c 5 t : Mat 27 128) = arr V c 5 := by
  obtain ⟨-, -, -, -, -, e, -⟩ := idx_facts t
  funext y
  show arr V c 5 (((cfg1.win 5).blk t).view.emb y) = arr V c 5 y
  exact congrArg _ (funext fun a => Fin.ext (win1_5.rect_emb_val_of_index_zero t a (e a) y))

theorem bB1_eq : (iblk1 V c 6 t : Mat 1 128) = arr V c 6 := by
  obtain ⟨-, -, -, -, -, -, e, -⟩ := idx_facts t
  funext y
  show arr V c 6 (((cfg1.win 6).blk t).view.emb y) = arr V c 6 y
  exact congrArg _ (funext fun a => Fin.ext (win1_6.rect_emb_val_of_index_zero t a (e a) y))

theorem bW2_eq : (iblk1 V c 7 t : Mat 128 128) = arr V c 7 := by
  obtain ⟨-, -, -, -, -, -, -, e, -⟩ := idx_facts t
  funext y
  show arr V c 7 (((cfg1.win 7).blk t).view.emb y) = arr V c 7 y
  exact congrArg _ (funext fun a => Fin.ext (win1_7.rect_emb_val_of_index_zero t a (e a) y))

theorem bB2_eq : (iblk1 V c 8 t : Mat 1 128) = arr V c 8 := by
  obtain ⟨-, -, -, -, -, -, -, -, e, -⟩ := idx_facts t
  funext y
  show arr V c 8 (((cfg1.win 8).blk t).view.emb y) = arr V c 8 y
  exact congrArg _ (funext fun a => Fin.ext (win1_8.rect_emb_val_of_index_zero t a (e a) y))

theorem out_emb (p : Fin 5000) (q : Fin 128) (r : Fin 400000) (hr : r.val = 5000 * t.val + p.val) :
    ((cfg1.win 9).blk t).view.emb (ix2 p q) = (ix2 r q : S400000x128.Idx) := by
  obtain ⟨-, -, -, -, -, -, -, -, -, e0, e1⟩ := idx_facts t
  refine Shape.idx_ext₂ ?_ (win1_9.rect_emb_val_of_index_zero t (1 : Fin 2) e1 _)
  show win1_9.index t (0 : Fin 2) * 5000 + 1 * p.val = r.val
  omega

/-- The block of point t is block t of kern of the arrays: its entry (p, q) is the cell of row p of the blocks, which are rows 5000 t + p of the arrays. -/
theorem flushed_eq : (dat1 V c).flushed 9 t = ((cfg1.win 9).blk t).view.read (Elt Ideal) (outArr V c) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S5000x27) hz,
    View.ld_unit_zero (S := S27x128) hz, View.ld_unit_zero (S := S1x128) hz]
  funext j
  obtain ⟨p, q, rfl⟩ : ∃ (p : Fin 5000) (q : Fin 128), j = ix2 p q := ⟨j 0, j 1, eq_ix2 j⟩
  have hp := p.isLt
  have ht := t_lt t
  have hr : (⟨5000 * t.val + p.val, by omega⟩ : Fin 400000).val = 5000 * t.val + p.val := rfl
  show k1_pay1 (F := Ideal) _ _ _ _ _ _ _ _ _ (ix2 p q) = outArr V c (((cfg1.win 9).blk t).view.emb (ix2 p q))
  rw [out_emb t p q _ hr]
  refine (pay_apply _ _ _ _ _ _ _ _ _ p q).trans ?_
  rw [bXd_row V c t p _ hr, bXs_row V c t p _ hr, bEa_row V c t p _ hr, bW1d_eq, bW1s_eq, bW1e_eq, bB1_eq, bW2_eq, bB2_eq]
  rfl

theorem value :
    (dat1 (F := Ideal) V c).arrAt 9 cfg1.N
      = kern (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8)) :=
  (dat1 V c).arrAt_eq_of_cover 9 (outArr V c) (fun t _ => flushed_eq V c t) cover

end Cert.St1

end
-- ==== Proof.St2.Pay.lean ====
import proofs.«418876_j14568529068621_1_alg».proof.Proof.Gen.KernelIdeal.Skeleton
import proofs.«418876_j14568529068621_1_alg».proof.Proof.St2.Spec
import proofs.«418876_j14568529068621_1_alg».proof.Proof.Upd
import Idealize.ShloMosaic.Lib.ValueLayout
import Idealize.ShloMosaic.Lib.Pipeline.Value

noncomputable section

namespace Cert.St2

open Cert.KernelIdeal Cert.KernelIdeal.Gen Idealize.ShloMosaic Idealize.ShloMosaic.ValueIdx
open scoped BigOperators

/-- Every operation acts entry by entry, except the three products, which are sums over the contracted feature, and the row broadcasts, which read the row. -/
theorem pay_apply (x0 x1 : Vec Ideal S5000x128 .f32) (x2 x3 : Vec Ideal S128x128 .f32) (x4 : Vec Ideal S1x128 .f32)
    (x5 : Vec Ideal S128x128 .f32) (x6 x7 x8 x9 x10 : Vec Ideal S1x128 .f32) (p : Fin 5000) (q : Fin 128) :
    k2_pay1 (k2_pay2 x0 x2 x1 x3 x4 x5 x6 x9) (k2_pay3 x10) (k2_pay4 (F := Ideal)) x7 x8 x0 (ix2 p q)
      = rowOut (fun j => x0 (ix2 p j)) (fun j => x1 (ix2 p j)) x2 x3 x4 x5 x6 x7 x8 x9 x10 q := by
  unfold k2_pay1 k2_pay2 k2_pay3 k2_pay4
  simp only [shapeCast_self, addf_apply, mulf_apply, subf_apply, maximumf_apply, truncf_apply, broadcast_apply,
    broadcastTo_1b_ab_apply, Upd.mm_at dot_S5000x128_S128x128_S5000x128_1_0_0_1_n_n rfl]
  rfl

end Cert.St2

end
-- ==== Proof.St2.Kern.lean ====
import proofs.«418876_j14568529068621_1_alg».proof.Proof.Gen.KernelIdeal.Frame
import proofs.«418876_j14568529068621_1_alg».proof.Proof.St2.Pay
import Idealize.ShloMosaic.Lib.Pipeline.Value

noncomputable section

namespace Cert.St2

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD) (t : Fin cfg2.N)

abbrev A0 : Arr 50000 128 := V c (Pipeline.arrRef spec2 0)
abbrev A1 : Arr 50000 128 := V c (Pipeline.arrRef spec2 1)
abbrev A2 : Arr 128 128 := V c (Pipeline.arrRef spec2 2)
abbrev A3 : Arr 128 128 := V c (Pipeline.arrRef spec2 3)
abbrev A4 : Arr 1 128 := V c (Pipeline.arrRef spec2 4)
abbrev A5 : Arr 128 128 := V c (Pipeline.arrRef spec2 5)
abbrev A6 : Arr 1 128 := V c (Pipeline.arrRef spec2 6)
abbrev A7 : Arr 1 128 := V c (Pipeline.arrRef spec2 7)
abbrev A8 : Arr 1 128 := V c (Pipeline.arrRef spec2 8)
abbrev A9 : Arr 1 128 := V c (Pipeline.arrRef spec2 9)
abbrev A10 : Arr 1 128 := V c (Pipeline.arrRef spec2 10)

theorem idx_row : ∀ t : Fin cfg2.N, (win2_0.index t (0 : Fin 2) = t.val ∧ win2_0.index t (1 : Fin 2) = 0)
    ∧ (win2_1.index t (0 : Fin 2) = t.val ∧ win2_1.index t (1 : Fin 2) = 0)
    ∧ win2_11.index t (0 : Fin 2) = t.val ∧ win2_11.index t (1 : Fin 2) = 0 :=
  (by decide +kernel : ∀ t : Fin grid2.N, _)

theorem idx_par : ∀ w : Fin 12, 2 ≤ w.val ∧ w.val ≤ 10 → ∀ (t : Fin cfg2.N) (a : Fin (win2 w).shape.rank), (win2 w).index t a = 0 :=
  (by decide +kernel : ∀ w : Fin 12, 2 ≤ w.val ∧ w.val ≤ 10 → ∀ (t : Fin grid2.N) (a : Fin (win2 w).shape.rank), _)

/-- With block index zero on every axis, an entry's place in the array is its place in the block. -/
theorem par (w : Fin 12) (y : ((win2 w).xblock (grid2.coords t)).Idx) (a : Fin (win2 w).shape.rank)
    (h : 2 ≤ w.val ∧ w.val ≤ 10 := by decide) : (((win2 w).rect t).emb y a : Nat) = y a :=
  (win2 w).rect_emb_val_of_index_zero t a (idx_par w h t a) y

theorem blk2 : (iblk2 V c 2 t : Vec Ideal S128x128 .f32) = A2 V c :=
  funext fun y => congrArg (A2 V c) (funext fun a => Fin.ext (par t 2 y a))
theorem blk3 : (iblk2 V c 3 t : Vec Ideal S128x128 .f32) = A3 V c :=
  funext fun y => congrArg (A3 V c) (funext fun a => Fin.ext (par t 3 y a))
theorem blk4 : (iblk2 V c 4 t : Vec Ideal S1x128 .f32) = A4 V c :=
  funext fun y => congrArg (A4 V c) (funext fun a => Fin.ext (par t 4 y a))
theorem blk5 : (iblk2 V c 5 t : Vec Ideal S128x128 .f32) = A5 V c :=
  funext fun y => congrArg (A5 V c) (funext fun a => Fin.ext (par t 5 y a))
theorem blk6 : (iblk2 V c 6 t : Vec Ideal S1x128 .f32) = A6 V c :=
  funext fun y => congrArg (A6 V c) (funext fun a => Fin.ext (par t 6 y a))
theorem blk7 : (iblk2 V c 7 t : Vec Ideal S1x128 .f32) = A7 V c :=
  funext fun y => congrArg (A7 V c) (funext fun a => Fin.ext (par t 7 y a))
theorem blk8 : (iblk2 V c 8 t : Vec Ideal S1x128 .f32) = A8 V c :=
  funext fun y => congrArg (A8 V c) (funext fun a => Fin.ext (par t 8 y a))
theorem blk9 : (iblk2 V c 9 t : Vec Ideal S1x128 .f32) = A9 V c :=
  funext fun y => congrArg (A9 V c) (funext fun a => Fin.ext (par t 9 y a))
theorem blk10 : (iblk2 V c 10 t : Vec Ideal S1x128 .f32) = A10 V c :=
  funext fun y => congrArg (A10 V c) (funext fun a => Fin.ext (par t 10 y a))

/-- Row `p` of a row-tiled window's block at point `t` is row `5000 t + p` of its array. -/
theorem blk0 (p : Fin 5000) (j : Fin 128) (r : Fin 50000) (hr : r.val = t.val * 5000 + p.val) :
    (iblk2 V c 0 t : Vec Ideal S5000x128 .f32) (ix2 p j) = A0 V c (ix2 r j) := by
  obtain ⟨⟨e0, e1⟩, -⟩ := idx_row t
  refine congrArg (A0 V c) (Shape.idx_ext₂ ?_ ?_)
  · show win2_0.index t (0 : Fin 2) * 5000 + 1 * p.val = r.val; omega
  · show win2_0.index t (1 : Fin 2) * 128 + 1 * j.val = j.val; omega

theorem blk1 (p : Fin 5000) (j : Fin 128) (r : Fin 50000) (hr : r.val = t.val * 5000 + p.val) :
    (iblk2 V c 1 t : Vec Ideal S5000x128 .f32) (ix2 p j) = A1 V c (ix2 r j) := by
  obtain ⟨-, ⟨e0, e1⟩, -⟩ := idx_row t
  refine congrArg (A1 V c) (Shape.idx_ext₂ ?_ ?_)
  · show win2_1.index t (0 : Fin 2) * 5000 + 1 * p.val = r.val; omega
  · show win2_1.index t (1 : Fin 2) * 128 + 1 * j.val = j.val; omega

/-- The block of point `t` is rows `5000 t … 5000 t + 4999` of `kern` of the arrays. -/
theorem flushed_eq :
    (dat2 (F := Ideal) V c).flushed 11 t = ((cfg2.win 11).blk t).view.read (Elt Ideal) (kern (A0 V c) (A1 V c) (A2 V c) (A3 V c) (A4 V c) (A5 V c) (A6 V c) (A7 V c) (A8 V c) (A9 V c) (A10 V c)) := by
  show (cfg2.win 11).cut (grid2.coords t) ((dat2 V c).after 11 t) = _
  rw [after2_11]
  unfold out2_11
  rw [View.canon_unit_zero Upd.hz]
  simp only [View.ld_unit_zero (S := S5000x128) Upd.hz, View.ld_unit_zero (S := S128x128) Upd.hz, View.ld_unit_zero (S := S1x128) Upd.hz]
  obtain ⟨-, -, e0, e1⟩ := idx_row t
  have hN : t.val < 10 := lt_of_lt_of_eq t.isLt N_2
  funext j
  obtain ⟨p, q, rfl⟩ : ∃ (p : Fin 5000) (q : Fin 128), j = ix2 p q := ⟨j 0, j 1, eq_ix2 j⟩
  have hp := p.isLt
  have hemb : ((cfg2.win 11).blk t).view.emb (ix2 p q) = ix2 (⟨t.val * 5000 + p.val, by omega⟩ : Fin 50000) q := by
    refine Shape.idx_ext₂ ?_ ?_
    · show win2_11.index t (0 : Fin 2) * 5000 + 1 * p.val = t.val * 5000 + p.val; omega
    · show win2_11.index t (1 : Fin 2) * 128 + 1 * q.val = q.val; omega
  refine (pay_apply _ _ _ _ _ _ _ _ _ _ _ p q).trans ?_
  rw [blk2 V c t, blk3 V c t, blk4 V c t, blk5 V c t, blk6 V c t, blk7 V c t, blk8 V c t, blk9 V c t, blk10 V c t]
  show _ = kern _ _ _ _ _ _ _ _ _ _ _ (((cfg2.win 11).blk t).view.emb (ix2 p q))
  rw [hemb]
  rw [kern_apply]
  exact congrArg₂ (fun f g => rowOut f g _ _ _ _ _ _ _ _ _ q) (funext fun j => blk0 V c t p j _ rfl) (funext fun j => blk1 V c t p j _ rfl)

/-- Row `r` of the output lies in the block of point `r / 5000`. -/
theorem cover (i : S50000x128.Idx) : ∃ t : Fin cfg2.N, (cfg2.win 11).flush t = true ∧ i ∈ ((cfg2.win 11).blk t).view.set := by
  have hi0 := idx2_lt0 i
  have hi1 := idx2_lt1 i
  obtain ⟨t, ht⟩ : ∃ t : Fin cfg2.N, t.val = (i 0).val / 5000 :=
    ⟨⟨_, lt_of_lt_of_eq (by omega : (i 0).val / 5000 < 10) N_2.symm⟩, rfl⟩
  obtain ⟨-, -, e0, e1⟩ := idx_row t
  refine ⟨t, flush2_11 t, ?_⟩
  show i ∈ ((View.whole main_v36).slice (win2_11.rect t)).set
  rw [View.set_slice_whole, Rect.mem_set_unit]
  intro a
  match a with
  | ⟨0, _⟩ =>
    show win2_11.index t (0 : Fin 2) * 5000 ≤ (i 0).val ∧ (i 0).val < win2_11.index t (0 : Fin 2) * 5000 + 5000
    omega
  | ⟨1, _⟩ =>
    show win2_11.index t (1 : Fin 2) * 128 ≤ (i 1).val ∧ (i 1).val < win2_11.index t (1 : Fin 2) * 128 + 128
    omega

/-- The ten blocks cover the output, so it ends as `kern` of the arrays. -/
theorem value : (dat2 (F := Ideal) V c).arrAt 11 cfg2.N = kern (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 V c).arrAt_eq_of_cover 11 _ (fun t _ => flushed_eq V c t) cover

end Cert.St2

end
-- ==== Proof.St3.Pay.lean ====
import proofs.«418876_j14568529068621_1_alg».proof.Proof.Gen.KernelIdeal.Skeleton
import proofs.«418876_j14568529068621_1_alg».proof.Proof.St3.Spec
import proofs.«418876_j14568529068621_1_alg».proof.Proof.St1.Dot
import Idealize.ShloMosaic.Lib.ValueLayout

noncomputable section

open scoped BigOperators

namespace Cert.St3

open Idealize.ShloMosaic Idealize.ShloMosaic.ValueIdx
open Cert.KernelIdeal Cert.KernelIdeal.Gen

/-- Over the extended reals each product is the plain sum over the inner index, and a one-row bias is read at its one row. -/
theorem pay_eq (v0 : Mat 5000 128) (v3 : Mat 128 64) (v7 : Mat 5000 128) (v10 : Mat 128 64) (v15 : Mat 5000 27)
    (v17 : Mat 27 64) (v22 : Mat 1 64) (v29 : Mat 64 64) (v32 : Mat 1 64) :
    k3_pay1 (F := Ideal) v0 v3 v7 v10 v15 v17 v22 v29 v32 = mlp (R := 5000) v0 v7 v15 v3 v10 v17 v22 v29 v32 := by
  funext j
  obtain ⟨p, q, rfl⟩ : ∃ (p : Fin 5000) (q : Fin 64), j = ix2 p q := ⟨j 0, j 1, eq_ix2 j⟩
  unfold k3_pay1 mlp hid
  simp only [shapeCast_self, addf_apply, maximumf_apply,
    St1.matmul_zero_ix2 dot_S5000x128_S128x64_S5000x64_1_0_0_1_n_n rfl,
    St1.matmul_zero_ix2 dot_S5000x27_S27x64_S5000x64_1_0_0_1_n_n rfl,
    St1.matmul_zero_ix2 dot_S5000x64_S64x64_S5000x64_1_0_0_1_n_n rfl,
    truncf_apply, broadcast_apply, broadcastTo_1b_ab_apply, Ideal.ofBits_def, Ideal.ofBits_zero_f32]

end Cert.St3
-- ==== Proof.St3.Kern.lean ====
import proofs.«418876_j14568529068621_1_alg».proof.Proof.Gen.KernelIdeal.Frame
import proofs.«418876_j14568529068621_1_alg».proof.Proof.St3.Spec
import proofs.«418876_j14568529068621_1_alg».proof.Proof.St3.Pay
import Idealize.ShloMosaic.Lib.Pipeline.Value

noncomputable section

open scoped BigOperators

namespace Cert.St3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Over the 80 points a row-tiled array's block index is (t, 0) and a whole array's is (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (∀ a : Fin 2, win3_3.index t a = 0)
    ∧ (∀ a : Fin 2, win3_4.index t a = 0)
    ∧ (∀ a : Fin 2, win3_5.index t a = 0)
    ∧ (∀ a : Fin 2, win3_6.index t a = 0)
    ∧ (∀ a : Fin 2, win3_7.index t a = 0)
    ∧ (∀ a : Fin 2, win3_8.index t a = 0)
    ∧ (win3_9.index t (0 : Fin 2) = t.val ∧ win3_9.index t (1 : Fin 2) = 0) :=
  (by decide +kernel : ∀ t : Fin grid3.N, _)

/-- The 80 blocks of 5000 rows cover the 400000 rows: row i is in block ⌊i / 5000⌋. -/
theorem covered (i : S400000x64.Idx) : ∃ t : Fin cfg3.N, (cfg3.win 9).flush t = true ∧ i ∈ ((cfg3.win 9).blk t).view.set := by
  have hi0 : (i 0).val < 400000 := (i 0).isLt
  have hi1 : (i 1).val < 64 := (i 1).isLt
  let t : Fin cfg3.N := ⟨(i 0).val / 5000, by rw [show cfg3.N = 80 from N_3]; omega⟩
  have ht : t.val = (i 0).val / 5000 := rfl
  obtain ⟨-, -, -, -, -, -, -, -, -, e0, e1⟩ := idx_facts t
  refine ⟨t, flush3_9 t, ?_⟩
  show i ∈ ((View.whole main_v44).slice (win3_9.rect t)).set
  rw [View.set_slice_whole, Rect.mem_set_unit]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 64 ≤ (i 1).val ∧ (i 1).val < win3_9.index t (1 : Fin 2) * 64 + 64; omega

/-- Each output depends on its own row of the inputs only, so the network of a block of rows is the block of the network of all rows. -/
theorem mlp_rows {X0 X1 : Mat 400000 128} {X2 : Mat 400000 27} {x0 x1 : Mat 5000 128} {x2 : Mat 5000 27}
    {w1d w1s : Mat 128 64} {w1e : Mat 27 64} {b1 : Mat 1 64} {w2 : Mat 64 64} {b2 : Mat 1 64} (n : Nat)
    (h0 : ∀ (p : Fin 5000) (k : Fin 128) (r : Fin 400000), r.val = 5000 * n + p.val → x0 (ix2 p k) = X0 (ix2 r k))
    (h1 : ∀ (p : Fin 5000) (k : Fin 128) (r : Fin 400000), r.val = 5000 * n + p.val → x1 (ix2 p k) = X1 (ix2 r k))
    (h2 : ∀ (p : Fin 5000) (k : Fin 27) (r : Fin 400000), r.val = 5000 * n + p.val → x2 (ix2 p k) = X2 (ix2 r k))
    (j : (⟨2, ![5000, 64]⟩ : Shape).Idx) (i : (⟨2, ![400000, 64]⟩ : Shape).Idx)
    (hi0 : (i 0).val = 5000 * n + (j 0).val) (hi1 : (i 1).val = (j 1).val) :
    mlp x0 x1 x2 w1d w1s w1e b1 w2 b2 j = kern X0 X1 X2 w1d w1s w1e b1 w2 b2 i := by
  obtain ⟨p, q, rfl⟩ : ∃ (p : Fin 5000) (q : Fin 64), j = ix2 p q := ⟨j 0, j 1, eq_ix2 j⟩
  obtain ⟨r, s, rfl⟩ : ∃ (r : Fin 400000) (s : Fin 64), i = ix2 r s := ⟨i 0, i 1, eq_ix2 i⟩
  have hr : r.val = 5000 * n + p.val := hi0
  obtain rfl : s = q := Fin.ext hi1
  unfold kern mlp hid
  simp only [h0 p _ r hr, h1 p _ r hr, h2 p _ r hr]

variable (c : Dev nD) (t : Fin cfg3.N)

abbrev arr (w : Fin cfg3.W) := V c (Pipeline.arrRef spec3 w)

abbrev outArr : Mat 400000 64 :=
  kern (arr V c 0) (arr V c 1) (arr V c 2) (arr V c 3) (arr V c 4) (arr V c 5) (arr V c 6) (arr V c 7) (arr V c 8)

/-- A block entry sits in its array at block index times block size plus its own place, so row p of a row-tiled block at point t is row 5000 t + p. -/
theorem blk0_apply (p : Fin 5000) (k : Fin 128) (r : Fin 400000) (hr : r.val = 5000 * t.val + p.val) :
    (iblk3 V c 0 t : Mat 5000 128) (ix2 p k) = arr V c 0 (ix2 r k) := by
  obtain ⟨⟨e0, e1⟩, -⟩ := idx_facts t
  show arr V c 0 (((cfg3.win 0).blk t).view.emb (ix2 p k)) = arr V c 0 (ix2 r k)
  refine congrArg _ (Shape.idx_ext₂ ?_ (win3_0.rect_emb_val_of_index_zero t (1 : Fin 2) e1 _))
  show win3_0.index t (0 : Fin 2) * 5000 + 1 * p.val = r.val
  omega

theorem blk1_apply (p : Fin 5000) (k : Fin 128) (r : Fin 400000) (hr : r.val = 5000 * t.val + p.val) :
    (iblk3 V c 1 t : Mat 5000 128) (ix2 p k) = arr V c 1 (ix2 r k) := by
  obtain ⟨-, ⟨e0, e1⟩, -⟩ := idx_facts t
  show arr V c 1 (((cfg3.win 1).blk t).view.emb (ix2 p k)) = arr V c 1 (ix2 r k)
  refine congrArg _ (Shape.idx_ext₂ ?_ (win3_1.rect_emb_val_of_index_zero t (1 : Fin 2) e1 _))
  show win3_1.index t (0 : Fin 2) * 5000 + 1 * p.val = r.val
  omega

theorem blk2_apply (p : Fin 5000) (k : Fin 27) (r : Fin 400000) (hr : r.val = 5000 * t.val + p.val) :
    (iblk3 V c 2 t : Mat 5000 27) (ix2 p k) = arr V c 2 (ix2 r k) := by
  obtain ⟨-, -, ⟨e0, e1⟩, -⟩ := idx_facts t
  show arr V c 2 (((cfg3.win 2).blk t).view.emb (ix2 p k)) = arr V c 2 (ix2 r k)
  refine congrArg _ (Shape.idx_ext₂ ?_ (win3_2.rect_emb_val_of_index_zero t (1 : Fin 2) e1 _))
  show win3_2.index t (0 : Fin 2) * 5000 + 1 * p.val = r.val
  omega

/-- A block at index (0, 0) that is as large as its array is the array. -/
theorem blk3_eq : (iblk3 V c 3 t : Mat 128 64) = arr V c 3 := by
  obtain ⟨-, -, -, e, -⟩ := idx_facts t
  funext y
  show arr V c 3 (((cfg3.win 3).blk t).view.emb y) = arr V c 3 y
  exact congrArg _ (funext fun a => Fin.ext (win3_3.rect_emb_val_of_index_zero t a (e a) y))

theorem blk4_eq : (iblk3 V c 4 t : Mat 128 64) = arr V c 4 := by
  obtain ⟨-, -, -, -, e, -⟩ := idx_facts t
  funext y
  show arr V c 4 (((cfg3.win 4).blk t).view.emb y) = arr V c 4 y
  exact congrArg _ (funext fun a => Fin.ext (win3_4.rect_emb_val_of_index_zero t a (e a) y))

theorem blk5_eq : (iblk3 V c 5 t : Mat 27 64) = arr V c 5 := by
  obtain ⟨-, -, -, -, -, e, -⟩ := idx_facts t
  funext y
  show arr V c 5 (((cfg3.win 5).blk t).view.emb y) = arr V c 5 y
  exact congrArg _ (funext fun a => Fin.ext (win3_5.rect_emb_val_of_index_zero t a (e a) y))

theorem blk6_eq : (iblk3 V c 6 t : Mat 1 64) = arr V c 6 := by
  obtain ⟨-, -, -, -, -, -, e, -⟩ := idx_facts t
  funext y
  show arr V c 6 (((cfg3.win 6).blk t).view.emb y) = arr V c 6 y
  exact congrArg _ (funext fun a => Fin.ext (win3_6.rect_emb_val_of_index_zero t a (e a) y))

theorem blk7_eq : (iblk3 V c 7 t : Mat 64 64) = arr V c 7 := by
  obtain ⟨-, -, -, -, -, -, -, e, -⟩ := idx_facts t
  funext y
  show arr V c 7 (((cfg3.win 7).blk t).view.emb y) = arr V c 7 y
  exact congrArg _ (funext fun a => Fin.ext (win3_7.rect_emb_val_of_index_zero t a (e a) y))

theorem blk8_eq : (iblk3 V c 8 t : Mat 1 64) = arr V c 8 := by
  obtain ⟨-, -, -, -, -, -, -, -, e, -⟩ := idx_facts t
  funext y
  show arr V c 8 (((cfg3.win 8).blk t).view.emb y) = arr V c 8 y
  exact congrArg _ (funext fun a => Fin.ext (win3_8.rect_emb_val_of_index_zero t a (e a) y))

/-- The block of point t is block t of kern of the arrays. -/
theorem flushed_eq : (dat3 V c).flushed 9 t = ((cfg3.win 9).blk t).view.read (Elt Ideal) (outArr V c) := by
  show (cfg3.win 9).cut (grid3.coords t) ((dat3 V c).after 9 t) = _
  rw [after3_9]
  unfold out3_9
  rw [View.canon_unit_zero hz]
  simp only [View.ld_unit_zero (S := S5000x128) hz, View.ld_unit_zero (S := S128x64) hz, View.ld_unit_zero (S := S5000x27) hz,
    View.ld_unit_zero (S := S27x64) hz, View.ld_unit_zero (S := S1x64) hz, View.ld_unit_zero (S := S64x64) hz]
  obtain ⟨-, -, -, -, -, -, -, -, -, e0, e1⟩ := idx_facts t
  funext j
  show k3_pay1 (F := Ideal) _ _ _ _ _ _ _ _ _ j = outArr V c (((cfg3.win 9).blk t).view.emb j)
  rw [pay_eq, blk3_eq, blk4_eq, blk5_eq, blk6_eq, blk7_eq, blk8_eq]
  refine mlp_rows t.val (blk0_apply V c t) (blk1_apply V c t) (blk2_apply V c t) j _ ?_ ?_
  · show win3_9.index t (0 : Fin 2) * 5000 + 1 * (j 0).val = 5000 * t.val + (j 0).val
    omega
  · show win3_9.index t (1 : Fin 2) * 64 + 1 * (j 1).val = (j 1).val
    omega

theorem value :
    (dat3 (F := Ideal) V c).arrAt 9 cfg3.N
      = kern (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8)) :=
  (dat3 V c).arrAt_eq_of_cover 9 (outArr V c) (fun t _ => flushed_eq V c t) covered

end Cert.St3
-- ==== Proof.St4.Pay.lean ====
import proofs.«418876_j14568529068621_1_alg».proof.Proof.Gen.KernelIdeal.Frame
import proofs.«418876_j14568529068621_1_alg».proof.Proof.St4.Spec
import proofs.«418876_j14568529068621_1_alg».proof.Proof.Upd
import Idealize.ShloMosaic.Lib.Pipeline.Value
import Idealize.ShloMosaic.Lib.ValueLayout

noncomputable section

open scoped BigOperators

namespace Cert.St4

open Cert.KernelIdeal Cert.KernelIdeal.Gen Idealize.ShloMosaic Idealize.ShloMosaic.ValueIdx

theorem pay2_apply (x0 : Vec Ideal S5000x128 .f32) (x2 : Vec Ideal S128x64 .f32) (x1 : Vec Ideal S5000x64 .f32) (x3 : Vec Ideal S64x64 .f32)
    (x4 : Vec Ideal S1x64 .f32) (x5 : Vec Ideal S64x64 .f32) (x6 x9 : Vec Ideal S1x64 .f32) (p : Fin 5000) (q : Fin 64) :
    k4_pay2 (F := Ideal) x0 x2 x1 x3 x4 x5 x6 x9 (ix2 p q)
      = ((∑ k : Fin 64, hid x0 x1 x2 x3 x4 p k * x5 (ix2 k q)) + x6 (ix2 (0 : Fin 1) q)) - x9 (ix2 (0 : Fin 1) q) := by
  unfold k4_pay2
  simp only [shapeCast_self]
  rw [subf_apply, addf_apply, Upd.mm_at dot_S5000x64_S64x64_S5000x64_1_0_0_1_n_n rfl, broadcastTo_1b_ab_apply, broadcastTo_1b_ab_apply]
  refine congrArg (· - x9 (ix2 (0 : Fin 1) q)) (congrArg (· + x6 (ix2 (0 : Fin 1) q)) (Finset.sum_congr rfl fun k _ => ?_))
  rw [truncf_apply, truncf_apply, maximumf_apply, addf_apply, addf_apply, Upd.mm_at dot_S5000x128_S128x64_S5000x64_1_0_0_1_n_n rfl, Upd.mm_at dot_S5000x64_S64x64_S5000x64_1_0_0_1_n_n rfl,
    broadcastTo_1b_ab_apply, broadcast_apply]
  rfl

theorem pay1_apply (v : FVec Ideal S5000x64 .f32) (s e : FVec Ideal S1x64 .f32) (g b : Vec Ideal S1x64 .f32)
    (x0 : Vec Ideal S5000x128 .f32) (x11 : Vec Ideal S128x64 .f32) (x12 : Vec Ideal S1x64 .f32) (p : Fin 5000) (q : Fin 64) :
    k4_pay1 (F := Ideal) v s e g b x0 x11 x12 (ix2 p q)
      = ((∑ a : Fin 128, x0 (ix2 p a) * x11 (ix2 a q)) + x12 (ix2 (0 : Fin 1) q))
        + max ((((v (ix2 p q)) * Ideal.rsqrt (s (ix2 (0 : Fin 1) q) + e (ix2 (0 : Fin 1) q))) * g (ix2 (0 : Fin 1) q))
              + b (ix2 (0 : Fin 1) q)) zeroW := by
  unfold k4_pay1
  simp only [shapeCast_self]
  rw [addf_apply, addf_apply, Upd.mm_at dot_S5000x128_S128x64_S5000x64_1_0_0_1_n_n rfl, broadcastTo_1b_ab_apply, maximumf_apply, addf_apply, mulf_apply, mulf_apply,
    broadcastTo_1b_ab_apply, broadcastTo_1b_ab_apply, broadcastTo_1b_ab_apply, broadcast_apply]
  rfl

theorem out_apply (x0 : Vec Ideal S5000x128 .f32) (x1 : Vec Ideal S5000x64 .f32) (x2 : Vec Ideal S128x64 .f32) (x3 : Vec Ideal S64x64 .f32)
    (x4 : Vec Ideal S1x64 .f32) (x5 : Vec Ideal S64x64 .f32) (x6 x7 x8 x9 x10 : Vec Ideal S1x64 .f32)
    (x11 : Vec Ideal S128x64 .f32) (x12 : Vec Ideal S1x64 .f32) (p : Fin 5000) (q : Fin 64) :
    out4_13 (F := Ideal) x0 x1 x2 x3 x4 x5 x6 x7 x8 x9 x10 x11 x12 (ix2 p q)
      = kernAt x0 x1 x2 x3 x4 x5 x6 x7 x8 x9 x10 x11 x12 p q := by
  unfold out4_13
  rw [View.canon_unit_zero Upd.hz]
  simp only [View.ld_unit_zero (S := S5000x128) Upd.hz, View.ld_unit_zero (S := S5000x64) Upd.hz, View.ld_unit_zero (S := S128x64) Upd.hz,
    View.ld_unit_zero (S := S64x64) Upd.hz, View.ld_unit_zero (S := S1x64) Upd.hz]
  rw [pay1_apply, pay2_apply]
  unfold k4_pay3 k4_pay4 kernAt
  simp only [shapeCast_self, broadcast_apply]
  rfl

end Cert.St4

end
-- ==== Proof.St4.Kern.lean ====
import proofs.«418876_j14568529068621_1_alg».proof.Proof.Gen.KernelIdeal.Frame
import proofs.«418876_j14568529068621_1_alg».proof.Proof.St4.Pay
import Idealize.ShloMosaic.Lib.Pipeline.Value

noncomputable section

namespace Cert.St4

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD) (t : Fin cfg4.N)

abbrev A0 : Arr 50000 128 := V c (Pipeline.arrRef spec4 0)
abbrev A1 : Arr 50000 64 := V c (Pipeline.arrRef spec4 1)
abbrev A2 : Arr 128 64 := V c (Pipeline.arrRef spec4 2)
abbrev A3 : Arr 64 64 := V c (Pipeline.arrRef spec4 3)
abbrev A4 : Arr 1 64 := V c (Pipeline.arrRef spec4 4)
abbrev A5 : Arr 64 64 := V c (Pipeline.arrRef spec4 5)
abbrev A6 : Arr 1 64 := V c (Pipeline.arrRef spec4 6)
abbrev A7 : Arr 1 64 := V c (Pipeline.arrRef spec4 7)
abbrev A8 : Arr 1 64 := V c (Pipeline.arrRef spec4 8)
abbrev A9 : Arr 1 64 := V c (Pipeline.arrRef spec4 9)
abbrev A10 : Arr 1 64 := V c (Pipeline.arrRef spec4 10)
abbrev A11 : Arr 128 64 := V c (Pipeline.arrRef spec4 11)
abbrev A12 : Arr 1 64 := V c (Pipeline.arrRef spec4 12)

theorem idx_row : ∀ t : Fin cfg4.N, (win4_0.index t (0 : Fin 2) = t.val ∧ win4_0.index t (1 : Fin 2) = 0)
    ∧ (win4_1.index t (0 : Fin 2) = t.val ∧ win4_1.index t (1 : Fin 2) = 0)
    ∧ win4_13.index t (0 : Fin 2) = t.val ∧ win4_13.index t (1 : Fin 2) = 0 :=
  (by decide +kernel : ∀ t : Fin grid4.N, _)

theorem idx_par : ∀ w : Fin 14, 2 ≤ w.val ∧ w.val ≤ 12 → ∀ (t : Fin cfg4.N) (a : Fin (win4 w).shape.rank), (win4 w).index t a = 0 :=
  (by decide +kernel : ∀ w : Fin 14, 2 ≤ w.val ∧ w.val ≤ 12 → ∀ (t : Fin grid4.N) (a : Fin (win4 w).shape.rank), _)

/-- With block index zero on every axis, an entry's place in the array is its place in the block. -/
theorem par (w : Fin 14) (y : ((win4 w).xblock (grid4.coords t)).Idx) (a : Fin (win4 w).shape.rank)
    (h : 2 ≤ w.val ∧ w.val ≤ 12 := by decide) : (((win4 w).rect t).emb y a : Nat) = y a :=
  (win4 w).rect_emb_val_of_index_zero t a (idx_par w h t a) y

theorem blk2 : (iblk4 V c 2 t : Vec Ideal S128x64 .f32) = A2 V c :=
  funext fun y => congrArg (A2 V c) (funext fun a => Fin.ext (par t 2 y a))
theorem blk3 : (iblk4 V c 3 t : Vec Ideal S64x64 .f32) = A3 V c :=
  funext fun y => congrArg (A3 V c) (funext fun a => Fin.ext (par t 3 y a))
theorem blk4 : (iblk4 V c 4 t : Vec Ideal S1x64 .f32) = A4 V c :=
  funext fun y => congrArg (A4 V c) (funext fun a => Fin.ext (par t 4 y a))
theorem blk5 : (iblk4 V c 5 t : Vec Ideal S64x64 .f32) = A5 V c :=
  funext fun y => congrArg (A5 V c) (funext fun a => Fin.ext (par t 5 y a))
theorem blk6 : (iblk4 V c 6 t : Vec Ideal S1x64 .f32) = A6 V c :=
  funext fun y => congrArg (A6 V c) (funext fun a => Fin.ext (par t 6 y a))
theorem blk7 : (iblk4 V c 7 t : Vec Ideal S1x64 .f32) = A7 V c :=
  funext fun y => congrArg (A7 V c) (funext fun a => Fin.ext (par t 7 y a))
theorem blk8 : (iblk4 V c 8 t : Vec Ideal S1x64 .f32) = A8 V c :=
  funext fun y => congrArg (A8 V c) (funext fun a => Fin.ext (par t 8 y a))
theorem blk9 : (iblk4 V c 9 t : Vec Ideal S1x64 .f32) = A9 V c :=
  funext fun y => congrArg (A9 V c) (funext fun a => Fin.ext (par t 9 y a))
theorem blk10 : (iblk4 V c 10 t : Vec Ideal S1x64 .f32) = A10 V c :=
  funext fun y => congrArg (A10 V c) (funext fun a => Fin.ext (par t 10 y a))
theorem blk11 : (iblk4 V c 11 t : Vec Ideal S128x64 .f32) = A11 V c :=
  funext fun y => congrArg (A11 V c) (funext fun a => Fin.ext (par t 11 y a))
theorem blk12 : (iblk4 V c 12 t : Vec Ideal S1x64 .f32) = A12 V c :=
  funext fun y => congrArg (A12 V c) (funext fun a => Fin.ext (par t 12 y a))

/-- Row `p` of a row-tiled window's block at point `t` is row `5000 t + p` of its array. -/
theorem blk0 (p : Fin 5000) (j : Fin 128) (r : Fin 50000) (hr : r.val = t.val * 5000 + p.val) :
    (iblk4 V c 0 t : Vec Ideal S5000x128 .f32) (ix2 p j) = A0 V c (ix2 r j) := by
  obtain ⟨⟨e0, e1⟩, -⟩ := idx_row t
  refine congrArg (A0 V c) (Shape.idx_ext₂ ?_ ?_)
  · show win4_0.index t (0 : Fin 2) * 5000 + 1 * p.val = r.val; omega
  · show win4_0.index t (1 : Fin 2) * 128 + 1 * j.val = j.val; omega

theorem blk1 (p : Fin 5000) (j : Fin 64) (r : Fin 50000) (hr : r.val = t.val * 5000 + p.val) :
    (iblk4 V c 1 t : Vec Ideal S5000x64 .f32) (ix2 p j) = A1 V c (ix2 r j) := by
  obtain ⟨-, ⟨e0, e1⟩, -⟩ := idx_row t
  refine congrArg (A1 V c) (Shape.idx_ext₂ ?_ ?_)
  · show win4_1.index t (0 : Fin 2) * 5000 + 1 * p.val = r.val; omega
  · show win4_1.index t (1 : Fin 2) * 64 + 1 * j.val = j.val; omega

/-- The block of point `t` is rows `5000 t … 5000 t + 4999` of `kern` of the arrays. -/
theorem flushed_eq :
    (dat4 (F := Ideal) V c).flushed 13 t = ((cfg4.win 13).blk t).view.read (Elt Ideal) (kern (A0 V c) (A1 V c) (A2 V c) (A3 V c) (A4 V c) (A5 V c) (A6 V c) (A7 V c) (A8 V c) (A9 V c) (A10 V c) (A11 V c) (A12 V c)) := by
  show (cfg4.win 13).cut (grid4.coords t) ((dat4 V c).after 13 t) = _
  rw [after4_13]
  obtain ⟨-, -, e0, e1⟩ := idx_row t
  have hN : t.val < 10 := lt_of_lt_of_eq t.isLt N_4
  funext j
  obtain ⟨p, q, rfl⟩ : ∃ (p : Fin 5000) (q : Fin 64), j = ix2 p q := ⟨j 0, j 1, eq_ix2 j⟩
  have hp := p.isLt
  have hemb : ((cfg4.win 13).blk t).view.emb (ix2 p q) = ix2 (⟨t.val * 5000 + p.val, by omega⟩ : Fin 50000) q := by
    refine Shape.idx_ext₂ ?_ ?_
    · show win4_13.index t (0 : Fin 2) * 5000 + 1 * p.val = t.val * 5000 + p.val; omega
    · show win4_13.index t (1 : Fin 2) * 64 + 1 * q.val = q.val; omega
  refine (out_apply _ _ _ _ _ _ _ _ _ _ _ _ _ p q).trans ?_
  rw [blk2 V c t, blk3 V c t, blk4 V c t, blk5 V c t, blk6 V c t, blk7 V c t, blk8 V c t, blk9 V c t, blk10 V c t, blk11 V c t, blk12 V c t]
  show _ = kern _ _ _ _ _ _ _ _ _ _ _ _ _ (((cfg4.win 13).blk t).view.emb (ix2 p q))
  rw [hemb]
  exact kernAt_congr_rows _ _ _ _ _ _ _ _ _ _ _ _ _ _ _ p _ q (fun a => blk0 V c t p a _ rfl) (fun a => blk1 V c t p a _ rfl)

/-- Row `r` of the output lies in the block of point `r / 5000`. -/
theorem cover (i : S50000x64.Idx) : ∃ t : Fin cfg4.N, (cfg4.win 13).flush t = true ∧ i ∈ ((cfg4.win 13).blk t).view.set := by
  have hi0 := idx2_lt0 i
  have hi1 := idx2_lt1 i
  obtain ⟨t, ht⟩ : ∃ t : Fin cfg4.N, t.val = (i 0).val / 5000 :=
    ⟨⟨_, lt_of_lt_of_eq (by omega : (i 0).val / 5000 < 10) N_4.symm⟩, rfl⟩
  obtain ⟨-, -, e0, e1⟩ := idx_row t
  refine ⟨t, flush4_13 t, ?_⟩
  show i ∈ ((View.whole main_v62).slice (win4_13.rect t)).set
  rw [View.set_slice_whole, Rect.mem_set_unit]
  intro a
  match a with
  | ⟨0, _⟩ =>
    show win4_13.index t (0 : Fin 2) * 5000 ≤ (i 0).val ∧ (i 0).val < win4_13.index t (0 : Fin 2) * 5000 + 5000
    omega
  | ⟨1, _⟩ =>
    show win4_13.index t (1 : Fin 2) * 64 ≤ (i 1).val ∧ (i 1).val < win4_13.index t (1 : Fin 2) * 64 + 64
    omega

/-- The ten blocks cover the output, so it ends as `kern` of the arrays. -/
theorem value : (dat4 (F := Ideal) V c).arrAt 13 cfg4.N = kern (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) :=
  (dat4 V c).arrAt_eq_of_cover 13 _ (fun t _ => flushed_eq V c t) cover

end Cert.St4

end
-- ==== Proof.St5.Pay.lean ====
import proofs.«418876_j14568529068621_1_alg».proof.Proof.Gen.KernelIdeal.Skeleton
import proofs.«418876_j14568529068621_1_alg».proof.Proof.St5.Spec

noncomputable section

namespace Cert.St5

open Idealize.ShloMosaic Idealize.ShloMosaic.ValueIdx
open Cert.KernelIdeal Cert.KernelIdeal.Gen Cert.Mat
open scoped BigOperators

/-- At (p, q) the body computes the classifier's value of row p of the block. -/
theorem pay_apply (x0 : Vec Ideal S5000x64 .f32) (x1 : Vec Ideal S64x32 .f32) (x2 : Vec Ideal S1x32 .f32)
    (x3 : Vec Ideal S32x1 .f32) (x4 : Vec Ideal S1x1 .f32) (p : Fin 5000) (q : Fin 1) :
    k5_pay1 (F := Ideal) x0 x1 x2 x3 x4 (ix2 p q) = logit (fun l => x0 (ix2 p l)) x1 x2 x3 x4 q := by
  refine congrArg₂ (· + ·) ((mm none _ _ p q).trans (Finset.sum_congr rfl fun k _ => congrArg (· * x3 (ix2 k q)) ?_))
    ((broadcastTo_1b_ab_apply _ _ p q).trans (congrFun (shapeCast_self x4 _) _))
  refine congrArg₂ max (congrArg₂ (· + ·) ((mm none _ _ p k).trans ?_) ?_) Ideal.ofBits_zero_f32
  · exact Finset.sum_congr rfl fun l _ => congrArg (· * x1 (ix2 l k)) (congrFun (shapeCast_self x0 _) _)
  · exact (broadcastTo_1b_ab_apply _ _ p k).trans (congrFun (shapeCast_self x2 _) _)

end Cert.St5
-- ==== Proof.St5.Kern.lean ====
import proofs.«418876_j14568529068621_1_alg».proof.Proof.Gen.KernelIdeal.Frame
import proofs.«418876_j14568529068621_1_alg».proof.Proof.St5.Pay
import Idealize.ShloMosaic.Lib.Pipeline.Value

noncomputable section

namespace Cert.St5

open Idealize.ShloMosaic Idealize.ShloMosaic.TcCoe Idealize.ShloMosaic.ValueIdx Idealize.SL.Sem
open Idealize.ShloMosaic.Pipeline (Dat Window)
open Cert.KernelIdeal Cert.KernelIdeal.Gen

variable (V : (c : Dev nD) → (b : Ref sig .tc) → Buf (Elt Ideal) ((c : Thread nD τ).loc b)) (c : Dev nD) (t : Fin cfg5.N)

abbrev arr (w : Fin cfg5.W) := V c (Pipeline.arrRef spec5 w)

/-- The stage of the five input arrays. -/
abbrev goal : Vec Ideal S50000x1 .f32 := kern (arr V c 0) (arr V c 1) (arr V c 2) (arr V c 3) (arr V c 4)

theorem hz : (![0, 0] : Fin 2 → Nat) = fun _ => 0 := funext fun a => by fin_cases a <;> rfl

theorem idx_facts : ∀ (t : Fin cfg5.N) (a : Fin 2), win5_1.index t a = 0 ∧ win5_2.index t a = 0 ∧ win5_3.index t a = 0
    ∧ win5_4.index t a = 0 ∧ win5_0.index t (1 : Fin 2) = 0 ∧ win5_5.index t (1 : Fin 2) = 0 ∧ win5_0.index t (0 : Fin 2) = t.val ∧ win5_5.index t (0 : Fin 2) = t.val :=
  (by decide +kernel : ∀ (t : Fin grid5.N) (a : Fin 2), _)

theorem iblk_1 : (iblk5 V c 1 t : Vec Ideal S64x32 .f32) = arr V c 1 :=
  funext fun y => congrArg (arr V c 1) (funext fun a => Fin.ext (Window.rect_emb_val_of_index_zero win5_1 t a (idx_facts t a).1 y))

theorem iblk_2 : (iblk5 V c 2 t : Vec Ideal S1x32 .f32) = arr V c 2 :=
  funext fun y => congrArg (arr V c 2) (funext fun a => Fin.ext (Window.rect_emb_val_of_index_zero win5_2 t a (idx_facts t a).2.1 y))

theorem iblk_3 : (iblk5 V c 3 t : Vec Ideal S32x1 .f32) = arr V c 3 :=
  funext fun y => congrArg (arr V c 3) (funext fun a => Fin.ext (Window.rect_emb_val_of_index_zero win5_3 t a (idx_facts t a).2.2.1 y))

theorem iblk_4 : (iblk5 V c 4 t : Vec Ideal S1x1 .f32) = arr V c 4 :=
  funext fun y => congrArg (arr V c 4) (funext fun a => Fin.ext (Window.rect_emb_val_of_index_zero win5_4 t a (idx_facts t a).2.2.2.1 y))

/-- Row p of block t is row 5000 t + p of its array, for the input and the output alike. -/
theorem flushed_eq : (dat5 (F := Ideal) V c).flushed 5 t = ((cfg5.win 5).blk t).view.read (Elt Ideal) (goal V c) := by
  show (cfg5.win 5).cut (grid5.coords t) ((dat5 (F := Ideal) V c).after 5 t) = _
  rw [after5_5]
  unfold out5_5
  rw [View.canon_unit_zero hz]
  simp only [View.ld_unit_zero (S := S5000x64) hz, View.ld_unit_zero (S := S64x32) hz, View.ld_unit_zero (S := S1x32) hz,
    View.ld_unit_zero (S := S32x1) hz, View.ld_unit_zero (S := S1x1) hz]
  rw [iblk_1, iblk_2, iblk_3, iblk_4]
  obtain ⟨-, -, -, -, e01, e51, e00, e50⟩ := idx_facts t 0
  funext y
  obtain ⟨p, q, rfl⟩ : ∃ (p : Fin 5000) (q : Fin 1), y = ix2 p q := ⟨y 0, y 1, eq_ix2 y⟩
  refine (pay_apply _ _ _ _ _ p q).trans ?_
  show logit (fun l => arr V c 0 (((cfg5.win 0).blk t).view.emb (ix2 p l))) _ _ _ _ q
    = logit (fun l => arr V c 0 (ix2 ((((cfg5.win 5).blk t).view.emb (ix2 p q) : S50000x1.Idx) 0) l)) _ _ _ _ ((((cfg5.win 5).blk t).view.emb (ix2 p q) : S50000x1.Idx) 1)
  refine congrArg₂ (logit · _ _ _ _ ·) (funext fun l => congrArg (arr V c 0) (funext fun a => Fin.ext ?_)) (Fin.ext ?_)
  · match a with
    | ⟨0, _⟩ => show win5_0.index t (0 : Fin 2) * 5000 + 1 * p.val = win5_5.index t (0 : Fin 2) * 5000 + 1 * p.val; omega
    | ⟨1, _⟩ => show win5_0.index t (1 : Fin 2) * 64 + 1 * l.val = l.val; omega
  · show q.val = win5_5.index t (1 : Fin 2) * 1 + 1 * q.val; omega

/-- Row r of the output is in the block of point r / 5000. -/
theorem cover (i : S50000x1.Idx) : ∃ t : Fin cfg5.N, (cfg5.win 5).flush t = true ∧ i ∈ ((cfg5.win 5).blk t).view.set := by
  have h0 : (i 0).val < 50000 := (i 0).isLt
  have h1 : (i 1).val < 1 := (i 1).isLt
  have hN : cfg5.N = 10 := N_5
  let t : Fin cfg5.N := ⟨(i 0).val / 5000, by omega⟩
  have ht : t.val = (i 0).val / 5000 := rfl
  obtain ⟨-, -, -, -, -, e1, -, e0⟩ := idx_facts t 0
  refine ⟨t, flush5_5 t, ?_⟩
  show i ∈ ((View.whole main_v65).slice (win5_5.rect t)).set
  rw [View.set_slice_whole, Rect.mem_set_unit]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 1 ≤ (i 1).val ∧ (i 1).val < win5_5.index t (1 : Fin 2) * 1 + 1; omega

/-- The ten blocks tile the output, so it ends as the stage of the five input arrays. -/
theorem value : (dat5 (F := Ideal) V c).arrAt 5 cfg5.N
    = kern (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 (goal V c) (fun t _ => flushed_eq V c t) cover

end Cert.St5
-- ==== Proof.ModelEq.lean ====
import proofs.«418876_j14568529068621_1_alg».proof.Proof.Gen.KernelIdeal
import proofs.«418876_j14568529068621_1_alg».proof.Proof.Gen.ReferenceIdeal
import proofs.«418876_j14568529068621_1_alg».proof.Proof.KChain.Value
import proofs.«418876_j14568529068621_1_alg».proof.Proof.Ref.Value
import proofs.«418876_j14568529068621_1_alg».proof.Proof.Glue.Take
import proofs.«418876_j14568529068621_1_alg».proof.Proof.St0.Bridge
import proofs.«418876_j14568529068621_1_alg».proof.Proof.St1.Bridge
import proofs.«418876_j14568529068621_1_alg».proof.Proof.St2.Bridge
import proofs.«418876_j14568529068621_1_alg».proof.Proof.St3.Bridge
import proofs.«418876_j14568529068621_1_alg».proof.Proof.St4.Bridge
import proofs.«418876_j14568529068621_1_alg».proof.Proof.St5.Bridge
import proofs.«418876_j14568529068621_1_alg».proof.Proof.St0.Kern
import proofs.«418876_j14568529068621_1_alg».proof.Proof.St1.Kern
import proofs.«418876_j14568529068621_1_alg».proof.Proof.St2.Kern
import proofs.«418876_j14568529068621_1_alg».proof.Proof.St3.Kern
import proofs.«418876_j14568529068621_1_alg».proof.Proof.St4.Kern
import proofs.«418876_j14568529068621_1_alg».proof.Proof.St5.Kern

noncomputable section

open Idealize.ShloMosaic Idealize.SL.Sem

namespace Cert.Proof.ModelEq

open Cert.Glue (takeK gatherR srcOf dstOf scatterMean128 scatterMean64)

variable {a0 b0 : Vec Ideal Cert.KernelIdeal.S50000x130 .f32} {a1 b1 : Vec Ideal Cert.KernelIdeal.S400000x27 .f32} {a2 b2 : Vec Ideal Cert.KernelIdeal.S130 .f32} {a3 b3 : Vec Ideal Cert.KernelIdeal.S130 .f32} {a4 b4 : Vec Ideal Cert.KernelIdeal.S130x128 .f32} {a5 b5 : Vec Ideal Cert.KernelIdeal.S128 .f32} {a6 b6 : Vec Ideal Cert.KernelIdeal.S283x128 .f32} {a7 b7 : Vec Ideal Cert.KernelIdeal.S128 .f32} {a8 b8 : Vec Ideal Cert.KernelIdeal.S128x128 .f32} {a9 b9 : Vec Ideal Cert.KernelIdeal.S128 .f32} {a10 b10 : Vec Ideal Cert.KernelIdeal.S256x128 .f32} {a11 b11 : Vec Ideal Cert.KernelIdeal.S128 .f32} {a12 b12 : Vec Ideal Cert.KernelIdeal.S128x128 .f32} {a13 b13 : Vec Ideal Cert.KernelIdeal.S128 .f32} {a14 b14 : Vec Ideal Cert.KernelIdeal.S128 .f32} {a15 b15 : Vec Ideal Cert.KernelIdeal.S128 .f32} {a16 b16 : Vec Ideal Cert.KernelIdeal.S128 .f32} {a17 b17 : Vec Ideal Cert.KernelIdeal.S128 .f32} {a18 b18 : Vec Ideal Cert.KernelIdeal.S283x64 .f32} {a19 b19 : Vec Ideal Cert.KernelIdeal.S64 .f32} {a20 b20 : Vec Ideal Cert.KernelIdeal.S64x64 .f32} {a21 b21 : Vec Ideal Cert.KernelIdeal.S64 .f32} {a22 b22 : Vec Ideal Cert.KernelIdeal.S192x64 .f32} {a23 b23 : Vec Ideal Cert.KernelIdeal.S64 .f32} {a24 b24 : Vec Ideal Cert.KernelIdeal.S64x64 .f32} {a25 b25 : Vec Ideal Cert.KernelIdeal.S64 .f32} {a26 b26 : Vec Ideal Cert.KernelIdeal.S64 .f32} {a27 b27 : Vec Ideal Cert.KernelIdeal.S64 .f32} {a28 b28 : Vec Ideal Cert.KernelIdeal.S64 .f32} {a29 b29 : Vec Ideal Cert.KernelIdeal.S64 .f32} {a30 b30 : Vec Ideal Cert.KernelIdeal.S128x64 .f32} {a31 b31 : Vec Ideal Cert.KernelIdeal.S64 .f32} {a32 b32 : Vec Ideal Cert.KernelIdeal.S64x32 .f32} {a33 b33 : Vec Ideal Cert.KernelIdeal.S32 .f32} {a34 b34 : Vec Ideal Cert.KernelIdeal.S32x1 .f32} {a35 b35 : Vec Ideal Cert.KernelIdeal.S1 .f32} {a36 b36 : Vec Ideal Cert.KernelIdeal.S2x400000 .i32}

section Stages
variable (hin : Cert.Glue.InRange a36)
include hin

theorem e0 : Cert.KChain.hN (F := Ideal) Cert.St0.kern a0 a2 a3 a4 a5 = Cert.St0.ref (F := Ideal) a0 a2 a3 a4 a5 :=
  Cert.St0.bridge a0 a2 a3 a4 a5 _ _

theorem e1 : Cert.KChain.msg1 (F := Ideal) Cert.St0.kern Cert.St1.kern a0 a1 a2 a3 a4 a5 a6 a7 a8 a9 a36
    = Cert.St1.ref (F := Ideal) (gatherR (Cert.St0.ref (F := Ideal) a0 a2 a3 a4 a5) (dstOf a36)) (gatherR (Cert.St0.ref (F := Ideal) a0 a2 a3 a4 a5) (srcOf a36)) a1 a6 a7 a8 a9 := by
  unfold Cert.KChain.msg1
  rw [e0 hin, Cert.Glue.take_eq _ _ (Cert.Glue.dstOf_range a36 hin), Cert.Glue.take_eq _ _ (Cert.Glue.srcOf_range a36 hin)]
  exact Cert.St1.bridge _ _ _ _ _ _ _

theorem e2 : Cert.KChain.hA (F := Ideal) Cert.St0.kern Cert.St1.kern Cert.St2.kern a0 a1 a2 a3 a4 a5 a6 a7 a8 a9 a10 a11 a12 a13 a14 a15 a16 a17 a36
    = Cert.St2.ref (F := Ideal) (Cert.St0.ref (F := Ideal) a0 a2 a3 a4 a5)
        (scatterMean128 (Cert.St1.ref (F := Ideal) (gatherR (Cert.St0.ref (F := Ideal) a0 a2 a3 a4 a5) (dstOf a36)) (gatherR (Cert.St0.ref (F := Ideal) a0 a2 a3 a4 a5) (srcOf a36)) a1 a6 a7 a8 a9) (dstOf a36))
        a10 a11 a12 a13 a14 a15 a16 a17 := by
  unfold Cert.KChain.hA
  rw [e0 hin, e1 hin]
  exact Cert.St2.bridge _ _ _ _ _ _ _ _ _ _

theorem e3 : Cert.KChain.msg2 (F := Ideal) Cert.St0.kern Cert.St1.kern Cert.St2.kern Cert.St3.kern a0 a1 a2 a3 a4 a5 a6 a7 a8 a9 a10 a11 a12 a13 a14 a15 a16 a17 a18 a19 a20 a21 a36
    = Cert.St3.ref (F := Ideal)
        (gatherR (Cert.KChain.hA (F := Ideal) Cert.St0.kern Cert.St1.kern Cert.St2.kern a0 a1 a2 a3 a4 a5 a6 a7 a8 a9 a10 a11 a12 a13 a14 a15 a16 a17 a36) (dstOf a36))
        (gatherR (Cert.KChain.hA (F := Ideal) Cert.St0.kern Cert.St1.kern Cert.St2.kern a0 a1 a2 a3 a4 a5 a6 a7 a8 a9 a10 a11 a12 a13 a14 a15 a16 a17 a36) (srcOf a36)) a1 a18 a19 a20 a21 := by
  unfold Cert.KChain.msg2
  rw [Cert.Glue.take_eq _ _ (Cert.Glue.dstOf_range a36 hin), Cert.Glue.take_eq _ _ (Cert.Glue.srcOf_range a36 hin)]
  exact Cert.St3.bridge _ _ _ _ _ _ _

theorem e4 : Cert.KChain.hB (F := Ideal) Cert.St0.kern Cert.St1.kern Cert.St2.kern Cert.St3.kern Cert.St4.kern a0 a1 a2 a3 a4 a5 a6 a7 a8 a9 a10 a11 a12 a13 a14 a15 a16 a17 a18 a19 a20 a21 a22 a23 a24 a25 a26 a27 a28 a29 a30 a31 a36
    = Cert.St4.ref (F := Ideal) (Cert.KChain.hA (F := Ideal) Cert.St0.kern Cert.St1.kern Cert.St2.kern a0 a1 a2 a3 a4 a5 a6 a7 a8 a9 a10 a11 a12 a13 a14 a15 a16 a17 a36)
        (scatterMean64 (Cert.KChain.msg2 (F := Ideal) Cert.St0.kern Cert.St1.kern Cert.St2.kern Cert.St3.kern a0 a1 a2 a3 a4 a5 a6 a7 a8 a9 a10 a11 a12 a13 a14 a15 a16 a17 a18 a19 a20 a21 a36) (dstOf a36)) a22 a23 a24 a25 a26 a27 a28 a29 a30 a31 := by
  unfold Cert.KChain.hB
  exact Cert.St4.bridge _ _ _ _ _ _ _ _ _ _ _ _

theorem e5 : Cert.KChain.model (F := Ideal) Cert.St0.kern Cert.St1.kern Cert.St2.kern Cert.St3.kern Cert.St4.kern Cert.St5.kern a0 a1 a2 a3 a4 a5 a6 a7 a8 a9 a10 a11 a12 a13 a14 a15 a16 a17 a18 a19 a20 a21 a22 a23 a24 a25 a26 a27 a28 a29 a30 a31 a32 a33 a34 a35 a36
    = Cert.St5.ref (F := Ideal) (Cert.KChain.hB (F := Ideal) Cert.St0.kern Cert.St1.kern Cert.St2.kern Cert.St3.kern Cert.St4.kern a0 a1 a2 a3 a4 a5 a6 a7 a8 a9 a10 a11 a12 a13 a14 a15 a16 a17 a18 a19 a20 a21 a22 a23 a24 a25 a26 a27 a28 a29 a30 a31 a36) a32 a33 a34 a35 := by
  unfold Cert.KChain.model Cert.KChain.logits
  exact Cert.St5.bridge _ _ _ _ _ _ _ _

-- stage by stage the two programs compute one function once every edge end is a node number
theorem model_eq (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) (h20 : b20 = a20) (h21 : b21 = a21) (h22 : b22 = a22) (h23 : b23 = a23) (h24 : b24 = a24) (h25 : b25 = a25) (h26 : b26 = a26) (h27 : b27 = a27) (h28 : b28 = a28) (h29 : b29 = a29) (h30 : b30 = a30) (h31 : b31 = a31) (h32 : b32 = a32) (h33 : b33 = a33) (h34 : b34 = a34) (h35 : b35 = a35) (h36 : b36 = a36) :
    Cert.RefRun.model (F := Ideal) b0 b1 b2 b3 b4 b5 b6 b7 b8 b9 b10 b11 b12 b13 b14 b15 b16 b17 b18 b19 b20 b21 b22 b23 b24 b25 b26 b27 b28 b29 b30 b31 b32 b33 b34 b35 b36
      = Cert.KChain.model (F := Ideal) Cert.St0.kern Cert.St1.kern Cert.St2.kern Cert.St3.kern Cert.St4.kern Cert.St5.kern a0 a1 a2 a3 a4 a5 a6 a7 a8 a9 a10 a11 a12 a13 a14 a15 a16 a17 a18 a19 a20 a21 a22 a23 a24 a25 a26 a27 a28 a29 a30 a31 a32 a33 a34 a35 a36 := by
  subst h0 h1 h2 h3 h4 h5 h6 h7 h8 h9 h10 h11 h12 h13 h14 h15 h16 h17 h18 h19 h20 h21 h22 h23 h24 h25 h26 h27 h28 h29 h30 h31 h32 h33 h34 h35 h36
  rw [e5 hin, e4 hin, e3 hin, e2 hin]
  rfl

end Stages

end Cert.Proof.ModelEq

end
-- ==== Proof.lean ====
import proofs.«418876_j14568529068621_1_alg».proof.Defs
import proofs.«418876_j14568529068621_1_alg».proof.Proof.Gen.Kernel
import proofs.«418876_j14568529068621_1_alg».proof.Proof.Gen.KernelIdeal
import proofs.«418876_j14568529068621_1_alg».proof.Proof.Gen.ReferenceIdeal
import proofs.«418876_j14568529068621_1_alg».proof.Proof.Gen.Pre_finite_inputs
import proofs.«418876_j14568529068621_1_alg».proof.Proof.Frames
import proofs.«418876_j14568529068621_1_alg».proof.Proof.RefFrame
import proofs.«418876_j14568529068621_1_alg».proof.Proof.KChain.Run
import proofs.«418876_j14568529068621_1_alg».proof.Proof.KChain.Value
import proofs.«418876_j14568529068621_1_alg».proof.Proof.Ref.Run
import proofs.«418876_j14568529068621_1_alg».proof.Proof.Ref.Value
import proofs.«418876_j14568529068621_1_alg».proof.Proof.PreDom.Range
import proofs.«418876_j14568529068621_1_alg».proof.Proof.ModelEq
import Idealize.ShloMosaic.Adequacy
import Idealize.ShloMosaic.Init

noncomputable section

namespace Cert.Proof

open Idealize.ShloMosaic Idealize.SL.Sem

-- both runs end at one term in the arguments: the region chain's on one side, the reference's operations on the other
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KChain.modelV (F := Ideal) m c Cert.St0.kern Cert.St1.kern Cert.St2.kern Cert.St3.kern Cert.St4.kern Cert.St5.kern, ?_, ?_⟩
  · exact (θ_run (Cert.KernelIdeal.defs (F := Ideal)) _ _).mono
      (fun r h c => ⟨(h c).1.trans (Cert.KChain.value (F := Ideal) m ρ c ⟨fun V c => Cert.St0.value V c, fun V c => Cert.St1.value V c, fun V c => Cert.St2.value V c, fun V c => Cert.St3.value V c, fun V c => Cert.St4.value V c, fun V c => Cert.St5.value V c⟩), (h c).2⟩)
      (Cert.KChain.run_named (F := Ideal) m ρ)
  · refine (θ_run (Cert.ReferenceIdeal.defs (F := Ideal)) _ _).mono (fun r h c => ⟨?_, by and_intros <;> exact (h c _).trans (Cert.RefRun.ops_keep _ _ (by decide))⟩)
      (Cert.RefRun.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36⟩ := hagree c
    exact ((h c Cert.ReferenceIdeal.main_v166).trans (Cert.RefRun.value _)).trans <| Cert.Proof.ModelEq.model_eq (Cert.PreDom.inRange_of_pre m hpre c) h0 h1 h2 h3 h4 h5 h6 h7 h8 h9 h10 h11 h12 h13 h14 h15 h16 h17 h18 h19 h20 h21 h22 h23 h24 h25 h26 h27 h28 h29 h30 h31 h32 h33 h34 h35 h36

theorem claim : Cert.Claim :=
  ⟨Cert.Kernel.Gen.facts, Cert.KernelIdeal.Gen.facts, Cert.ReferenceIdeal.Gen.facts, Cert.Pre_finite_inputs.Gen.facts,
    Frames.kernel, Frames.kernelIdeal, Frames.referenceIdeal, trivial, algebraic⟩

end Cert.Proof

end
